-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S800000 : Shape := ⟨1, ![800000]⟩
abbrev S128x128 : Shape := ⟨2, ![128, 128]⟩
abbrev S128 : Shape := ⟨1, ![128]⟩
abbrev S256 : Shape := ⟨1, ![256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg4 : FVec F S128 .f32) (main_arg5 : FVec F S128 .f32) (main_arg6 : FVec F S256 .f32) (main_arg7 : FVec F S256 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_v33

def fn {F : FTy → Type} [FloatOps F] (main_arg0 : FVec F S100000x128 .f32) (main_arg1 : FVec F S800000 .f32) (main_arg2 : FVec F S128x128 .f32) (main_arg3 : FVec F S128x128 .f32) (main_arg4 : FVec F S128 .f32) (main_arg5 : FVec F S128 .f32) (main_arg6 : FVec F S256 .f32) (main_arg7 : FVec F S256 .f32) (main_arg8 : IVec S800000 32) (main_arg9 : IVec S800000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S800000 .f32 := Host.absf main_arg1
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_v13 main_v16
-- ==== Kernel.lean ====
abbrev S100000x128 : Shape := ⟨2, ![100000, 128]⟩
abbrev S800000 : Shape := ⟨1, ![800000]⟩
abbrev S128x128 : Shape := ⟨2, ![128, 128]⟩
abbrev S128 : Shape := ⟨1, ![128]⟩
abbrev S256 : Shape := ⟨1, ![256]⟩
abbrev S800000x1 : Shape := ⟨2, ![800000, 1]⟩
abbrev S_ : Shape := ⟨0, ![]⟩
abbrev S800000x128 : Shape := ⟨2, ![800000, 128]⟩
abbrev S1x128 : Shape := ⟨2, ![1, 128]⟩
abbrev S100000x256 : Shape := ⟨2, ![100000, 256]⟩
abbrev S1x256 : Shape := ⟨2, ![1, 256]⟩
abbrev S2000x128 : Shape := ⟨2, ![2000, 128]⟩
abbrev S2000x256 : Shape := ⟨2, ![2000, 256]⟩

abbrev nBuf : Space → Nat
  | .hbm => 50
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S800000, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S256, .f32⟩
  | .hbm, ⟨7, _⟩ => ⟨S256, .f32⟩
  | .hbm, ⟨8, _⟩ => ⟨S800000, .i32⟩
  | .hbm, ⟨9, _⟩ => ⟨S800000, .i32⟩
  | .hbm, ⟨10, _⟩ => ⟨S800000x1, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S800000x128, .f32⟩
  | .hbm, ⟨21, _⟩ => ⟨S800000x128, .f32⟩
  | .hbm, ⟨22, _⟩ => ⟨S_, .f32⟩
  | .hbm, ⟨23, _⟩ => ⟨S100000x128, .f32⟩
  | .hbm, ⟨24, _⟩ => ⟨S800000x1, .i32⟩
  | .hbm, ⟨25, _⟩ => ⟨S100000x128, .f32⟩
  | .hbm, ⟨26, _⟩ => ⟨S1x128, .f32⟩
  | .hbm, ⟨27, _⟩ => ⟨S1x128, .f32⟩
  | .hbm, ⟨28, _⟩ => ⟨S100000x256, .f32⟩
  | .hbm, ⟨29, _⟩ => ⟨S1x256, .f32⟩
  | .hbm, ⟨30, _⟩ => ⟨S1x256, .f32⟩
  | .hbm, ⟨31, _⟩ => ⟨S256, .f32⟩
  | .hbm, ⟨32, _⟩ => ⟨S_, .f32⟩
  | .hbm, ⟨33, _⟩ => ⟨S256, .f32⟩
  | .hbm, ⟨34, _⟩ => ⟨S256, .f32⟩
  | .hbm, ⟨35, _⟩ => ⟨S256, .f32⟩
  | .hbm, ⟨36, _⟩ => ⟨S_, .f32⟩
  | .hbm, ⟨37, _⟩ => ⟨S256, .f32⟩
  | .hbm, ⟨38, _⟩ => ⟨S256, .f32⟩
  | .hbm, ⟨39, _⟩ => ⟨S256, .f32⟩
  | .hbm, ⟨40, _⟩ => ⟨S256, .f32⟩
  | .hbm, ⟨41, _⟩ => ⟨S_, .f32⟩
  | .hbm, ⟨42, _⟩ => ⟨S256, .f32⟩
  | .hbm, ⟨43, _⟩ => ⟨S256, .f32⟩
  | .hbm, ⟨44, _⟩ => ⟨S256, .f32⟩
  | .hbm, ⟨45, _⟩ => ⟨S1x256, .f32⟩
  | .hbm, ⟨46, _⟩ => ⟨S1x256, .f32⟩
  | .hbm, ⟨47, _⟩ => ⟨S1x256, .f32⟩
  | .hbm, ⟨48, _⟩ => ⟨S1x256, .f32⟩
  | .hbm, ⟨49, _⟩ => ⟨S100000x256, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S1x128, .f32⟩
  | .local _ .vmem, ⟨8, _⟩ => ⟨S2000x256, .f32⟩
  | .local _ .vmem, ⟨9, _⟩ => ⟨S2000x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S2000x256, .f32⟩
  | .local _ .vmem, ⟨15, _⟩ => ⟨S2000x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S2000x256, .f32⟩
  | .local _ .vmem, ⟨21, _⟩ => ⟨S2000x256, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15_0 : Ref sig .tc := ⟨.hbm, 28, rfl⟩
abbrev main_v15_1 : Ref sig .tc := ⟨.hbm, 29, rfl⟩
abbrev main_v15_2 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v58 : BitVec 1 := Scalar.cmpi .eq arg0 c49_i32
  let v59 : BitVec 32 := Scalar.extui v58
  let c0_i32_38 : BitVec 32 := 0#32
  let v60 : BitVec 1 := Scalar.cmpi .ne v59 c0_i32_38
  v60

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S100000x128 : S_.BroadcastsInDim S100000x128 (![] : Fin 0 → Fin S100000x128.rank)
  shapeCasts_S128_S1x128 : S128.ShapeCasts S1x128
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x256_S2000x128_0_0 : ∀ a, (![0, 0] : Fin 2 → Nat) a + S2000x128.size a ≤ S2000x256.size a
  inb_S2000x256_S2000x128_0_128 : ∀ a, (![0, 128] : Fin 2 → Nat) a + S2000x128.size a ≤ S2000x256.size a
  inb_S1x256_S1x128_0_0 : ∀ a, (![0, 0] : Fin 2 → Nat) a + S1x128.size a ≤ S1x256.size a
  reduces_S2000x128_S128 : S2000x128.Reduces [0] S128
  inb_S1x256_S1x128_0_128 : ∀ a, (![0, 128] : Fin 2 → Nat) a + S1x128.size a ≤ S1x256.size a
  shapeCasts_S1x256_S256 : S1x256.ShapeCasts S256
  bcast_S_S256 : S_.BroadcastsInDim S256 (![] : Fin 0 → Fin S256.rank)
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  broadcasts_S1x256_S2000x256 : S1x256.Broadcasts S2000x256
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S100000x256.size a
  hwx0_6 : ∀ i : grid0.Coords, EltTy.bits .f32 = 32 ∨ (Rect.block (s := S100000x256) S2000x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S100000x256.size a
  hwx1_5 : ∀ i : grid1.Coords, EltTy.bits .f32 = 32 ∨ (Rect.block (s := S100000x256) S2000x256.size (cc1_transform_5 i) (hinb1_5 i)).WholeWords (EltTy.packing .f32)

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15_0) S2000x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v15_1) S1x256.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15_2) S1x256.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | ⟨_ + 9, h⟩ => absurd h (Nat.not_lt.2 (Nat.le_add_left _ _))

abbrev win1_0 : Pipeline.Window sig grid1 :=
  Pipeline.Window.ofSpec (Memref.whole main_v15_0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S800000 : Shape := ⟨1, ![800000]⟩
abbrev S128x128 : Shape := ⟨2, ![128, 128]⟩
abbrev S128 : Shape := ⟨1, ![128]⟩
abbrev S256 : Shape := ⟨1, ![256]⟩
abbrev S800000x1 : Shape := ⟨2, ![800000, 1]⟩
abbrev S_ : Shape := ⟨0, ![]⟩
abbrev S800000x128 : Shape := ⟨2, ![800000, 128]⟩
abbrev S1x128 : Shape := ⟨2, ![1, 128]⟩
abbrev S100000x256 : Shape := ⟨2, ![100000, 256]⟩
abbrev S1x256 : Shape := ⟨2, ![1, 256]⟩

abbrev nBuf : Space → Nat
  | .hbm => 85
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S800000, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S256, .f32⟩
  | .hbm, ⟨7, _⟩ => ⟨S256, .f32⟩
  | .hbm, ⟨8, _⟩ => ⟨S800000, .i32⟩
  | .hbm, ⟨9, _⟩ => ⟨S800000, .i32⟩
  | .hbm, ⟨10, _⟩ => ⟨S800000x1, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S800000x128, .f32⟩
  | .hbm, ⟨21, _⟩ => ⟨S800000x128, .f32⟩
  | .hbm, ⟨22, _⟩ => ⟨S_, .f32⟩
  | .hbm, ⟨23, _⟩ => ⟨S100000x128, .f32⟩
  | .hbm, ⟨24, _⟩ => ⟨S800000x1, .i32⟩
  | .hbm, ⟨25, _⟩ => ⟨S100000x128, .f32⟩
  | .hbm, ⟨26, _⟩ => ⟨S100000x128, .f32⟩
  | .hbm, ⟨27, _⟩ => ⟨S_, .f32⟩
  | .hbm, ⟨28, _⟩ => ⟨S100000x128, .f32⟩
  | .hbm, ⟨29, _⟩ => ⟨S100000x128, .f32⟩
  | .hbm, ⟨30, _⟩ => ⟨S1x128, .f32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S_, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S100000x256, .f32⟩
  | .hbm, ⟨41, _⟩ => ⟨S_, .f32⟩
  | .hbm, ⟨42, _⟩ => ⟨S256, .f32⟩
  | .hbm, ⟨43, _⟩ => ⟨S_, .f32⟩
  | .hbm, ⟨44, _⟩ => ⟨S256, .f32⟩
  | .hbm, ⟨45, _⟩ => ⟨S256, .f32⟩
  | .hbm, ⟨46, _⟩ => ⟨S_, .i32⟩
  | .hbm, ⟨47, _⟩ => ⟨S_, .f32⟩
  | .hbm, ⟨48, _⟩ => ⟨S256, .f32⟩
  | .hbm, ⟨49, _⟩ => ⟨S1x256, .f32⟩
  | .hbm, ⟨50, _⟩ => ⟨S_, .f32⟩
  | .hbm, ⟨51, _⟩ => ⟨S1x256, .f32⟩
  | .hbm, ⟨52, _⟩ => ⟨S1x256, .f32⟩
  | .hbm, ⟨53, _⟩ => ⟨S100000x256, .f32⟩
  | .hbm, ⟨54, _⟩ => ⟨S100000x256, .f32⟩
  | .hbm, ⟨55, _⟩ => ⟨S100000x256, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S256, .f32⟩
  | .hbm, ⟨61, _⟩ => ⟨S256, .f32⟩
  | .hbm, ⟨62, _⟩ => ⟨S256, .f32⟩
  | .hbm, ⟨63, _⟩ => ⟨S_, .f32⟩
  | .hbm, ⟨64, _⟩ => ⟨S_, .i1⟩
  | .hbm, ⟨65, _⟩ => ⟨S_, .f32⟩
  | .hbm, ⟨66, _⟩ => ⟨S_, .f32⟩
  | .hbm, ⟨67, _⟩ => ⟨S256, .f32⟩
  | .hbm, ⟨68, _⟩ => ⟨S256, .f32⟩
  | .hbm, ⟨69, _⟩ => ⟨S1x256, .f32⟩
  | .hbm, ⟨70, _⟩ => ⟨S100000x256, .f32⟩
  | .hbm, ⟨71, _⟩ => ⟨S100000x256, .f32⟩
  | .hbm, ⟨72, _⟩ => ⟨S_, .f32⟩
  | .hbm, ⟨73, _⟩ => ⟨S256, .f32⟩
  | .hbm, ⟨74, _⟩ => ⟨S256, .f32⟩
  | .hbm, ⟨75, _⟩ => ⟨S256, .f32⟩
  | .hbm, ⟨76, _⟩ => ⟨S1x256, .f32⟩
  | .hbm, ⟨77, _⟩ => ⟨S100000x256, .f32⟩
  | .hbm, ⟨78, _⟩ => ⟨S100000x256, .f32⟩
  | .hbm, ⟨79, _⟩ => ⟨S1x256, .f32⟩
  | .hbm, ⟨80, _⟩ => ⟨S100000x256, .f32⟩
  | .hbm, ⟨81, _⟩ => ⟨S100000x256, .f32⟩
  | .hbm, ⟨82, _⟩ => ⟨S1x256, .f32⟩
  | .hbm, ⟨83, _⟩ => ⟨S100000x256, .f32⟩
  | .hbm, ⟨84, _⟩ => ⟨S100000x256, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call0_cst : Ref sig .tc := ⟨.hbm, 27, rfl⟩
abbrev main_call0_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_call1_cst : Ref sig .tc := ⟨.hbm, 34, rfl⟩
abbrev main_call1_v0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_1 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_c_3 : Ref sig .tc := ⟨.hbm, 46, rfl⟩
abbrev main_call2_cst : Ref sig .tc := ⟨.hbm, 47, rfl⟩
abbrev main_call2_v0 : Ref sig .tc := ⟨.hbm, 48, rfl⟩
abbrev main_call2_v1 : Ref sig .tc := ⟨.hbm, 49, rfl⟩
abbrev main_call2_cst_0 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_v5 : Ref sig .tc := ⟨.hbm, 54, rfl⟩
abbrev main_call2_v6 : Ref sig .tc := ⟨.hbm, 55, rfl⟩
abbrev main_call2_v7 : Ref sig .tc := ⟨.hbm, 56, rfl⟩
abbrev main_call2_cst_1 : Ref sig .tc := ⟨.hbm, 57, rfl⟩
abbrev main_call2_v8 : Ref sig .tc := ⟨.hbm, 58, rfl⟩
abbrev main_call2_cst_2 : Ref sig .tc := ⟨.hbm, 59, rfl⟩
abbrev main_call2_v9 : Ref sig .tc := ⟨.hbm, 60, rfl⟩
abbrev main_call2_v10 : Ref sig .tc := ⟨.hbm, 61, rfl⟩
abbrev main_call2_v11 : Ref sig .tc := ⟨.hbm, 62, rfl⟩
abbrev main_call2_cst_3 : Ref sig .tc := ⟨.hbm, 63, rfl⟩
abbrev main_call2_v12 : Ref sig .tc := ⟨.hbm, 64, rfl⟩
abbrev main_call2_cst_4 : Ref sig .tc := ⟨.hbm, 65, rfl⟩
abbrev main_call2_call0_v0 : Ref sig .tc := ⟨.hbm, 66, rfl⟩
abbrev main_call2_call0_v1 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_cst_4 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  concatenates_S100000x128_S100000x128_S100000x256_d1 : Shape.Concatenates [S100000x128, S100000x128] S100000x256 1
  reducesTo_S100000x256_S256_d0 : S100000x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S100000x256_0_1 : S1x256.BroadcastsInDim S100000x256 (![0, 1] : Fin 2 → Fin S100000x256.rank)
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S100000x128_S128x128_S100000x128_1_0_0_1_n_n_wf : DotDims.WF S100000x128 S128x128 S100000x128 [1] [0] [0] [1] [] []

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KB_R0Runs.lean ====
import proofs.«119049_j60301340836383_1_alg».proof.Proof.Gen.Kernel.Launch
import proofs.«119049_j60301340836383_1_alg».proof.Proof.Gen.Kernel.Skeleton
import proofs.«119049_j60301340836383_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 50 = 0 :=
  (by decide +kernel : ∀ t : Fin grid0.N, cond0_0 (grid0.coords t) ↔ t.val % 50 = 0)

abbrev cond0_1 (i : grid0.Coords) : Prop := k0_cond2 i = 1#1
theorem hcond0_1 : ∀ t : Fin cfg0.N, cond0_1 (grid0.coords t) ↔ t.val % 50 = 49 :=
  (by decide +kernel : ∀ t : Fin grid0.N, cond0_1 (grid0.coords t) ↔ t.val % 50 = 49)

theorem liveAt0 : ∀ w : Fin cfg0.W, w.val < 7 → ∀ t : Fin cfg0.N, cfg0.idle w (grid0.coords t) = false := by decide +kernel
theorem idleAt0 : ∀ w : Fin cfg0.W, 7 ≤ w.val → ∀ t : Fin cfg0.N, t.val ≠ 49 →
    cfg0.idle w (grid0.coords t) = true ∧ (cfg0.win w).flush t = false := by decide +kernel
theorem liveAt0_last : ∀ w : Fin cfg0.W, ∀ t : Fin cfg0.N, t.val = 49 → cfg0.idle w (grid0.coords t) = false := by decide +kernel

abbrev VO0_6 : View sig .tc .vmem S2000x256 .f32 := (Memref.whole cc0_stg6_0 : Memref sig .tc .vmem S2000x256 .f32).view
abbrev VO0_7 : View sig .tc .vmem S1x256 .f32 := (Memref.whole cc0_stg7_0 : Memref sig .tc .vmem S1x256 .f32).view
abbrev VO0_8 : View sig .tc .vmem S1x256 .f32 := (Memref.whole cc0_stg8_0 : Memref sig .tc .vmem S1x256 .f32).view
abbrev ms0_0 (t : Fin cfg0.N) : Memref sig .tc .vmem S2000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2000x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256 .f32 := win0_8.stage (cfg0.slots t 8)
abbrev hs0_8 (t : Fin cfg0.N) : (ms0_8 t).IsWhole := hstage0_8 ((cfg0.slots t 8).cast nbuf0_8)
abbrev scM0_0 : Memref sig .tc .vmem S1x256 .f32 := Memref.whole cc0_scratch0
abbrev scM0_1 : Memref sig .tc .vmem S1x256 .f32 := Memref.whole cc0_scratch1
abbrev VS0_0 : View sig .tc .vmem S1x256 .f32 := scM0_0.view
abbrev VS0_1 : View sig .tc .vmem S1x256 .f32 := scM0_1.view

def rest1 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest1 (F := F) c) ∗ (∃ r, prngReg c r)) := by
  unfold Pipeline.ΦA rest1; rw [scopedRest0_eq]; simp only [scM0_0, scM0_1, owns_whole]; try rfl

-- pieces that tile the whole shape determine what is read back, whatever was underneath
theorem owns_writes (c : Dev nD) {s : Shape} (m : Memref sig .tc .vmem s .f32) (v : View sig .tc .vmem s .f32)
    (f : m.view.ty.Contents (Elt F)) (L : List (View.Piece (Elt F) s .f32)) (size : Fin s.rank → ℕ) (h : View.Piece.tiledL L size = true) :
    (m.view.loc (c : Thread nD τ) ↦[m.view.set]{fullShare} m.view.writes (Elt F) f L : sProp 𝕄)
      ⊢ owns (c : Thread nD τ) m fullShare (v.read (Elt F) (v.writes (Elt F) v.junk L)) := by
  unfold owns; iintro H; iexists _; isplitr; swap; · iexact H
  ipureintro; exact View.read_writes_of_cover _ _ _ _ _ (View.cover_of_tiledL L size h)

end Cert.Kernel.Hand

end
-- ==== Proof.KB_R0Run.lean ====
import proofs.«119049_j60301340836383_1_alg».proof.Proof.KB_R0Runs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .vmem S2000x128 .f32) (harg1 : arg1.IsWhole) (arg2 : Memref sig .tc .vmem S2000x128 .f32) (harg2 : arg2.IsWhole)
  (arg3 : Memref sig .tc .vmem S128x128 .f32) (harg3 : arg3.IsWhole) (arg4 : Memref sig .tc .vmem S128x128 .f32) (harg4 : arg4.IsWhole)
  (arg5 : Memref sig .tc .vmem S1x128 .f32) (harg5 : arg5.IsWhole) (arg6 : Memref sig .tc .vmem S1x128 .f32) (harg6 : arg6.IsWhole)
  (arg7 : Memref sig .tc .vmem S2000x256 .f32) (harg7 : arg7.IsWhole) (arg8 : Memref sig .tc .vmem S1x256 .f32) (harg8 : arg8.IsWhole)
  (arg9 : Memref sig .tc .vmem S1x256 .f32) (harg9 : arg9.IsWhole) (arg10 : Memref sig .tc .vmem S1x256 .f32) (harg10 : arg10.IsWhole)
  (arg11 : Memref sig .tc .vmem S1x256 .f32) (harg11 : arg11.IsWhole)

abbrev own {s : Shape} (a : Memref sig .tc .vmem s .f32) (x : Vec F s .f32) : sProp 𝕄 := owns (c : Thread nD τ) a fullShare x
abbrev anyAt {s : Shape} (a : Memref sig .tc .vmem s .f32) : sProp 𝕄 := iprop(∃ d, owns (c : Thread nD τ) a fullShare d)
abbrev wrote {s : Shape} (a : Memref sig .tc .vmem s .f32) (L : List (View.Piece (Elt F) s .f32)) : sProp 𝕄 :=
  iprop(∃ f, a.view.loc (c : Thread nD τ) ↦[a.view.set]{fullShare} a.view.writes (Elt F) f L)

-- owning a whole memref at x is the points-to at the contents that read x
theorem own_eq {s : Shape} {a : Memref sig .tc .vmem s .f32} (ha : a.IsWhole) (x : Vec F s .f32) :
    own c a x = (a.view.loc (c : Thread nD τ) ↦[a.view.set]{fullShare} ha.unread x : sProp 𝕄) := by
  have h₁ : own c a x ⊢ (a.view.loc (c : Thread nD τ) ↦[a.view.set]{fullShare} ha.unread x : sProp 𝕄) := by
    unfold own owns; iintro ⟨%f, %hf, H⟩; obtain rfl := ha.eq_unread hf; iexact H
  have h₂ : (a.view.loc (c : Thread nD τ) ↦[a.view.set]{fullShare} ha.unread x : sProp 𝕄) ⊢ own c a x := by
    unfold own owns; iintro H; iexists _; isplitr; ipureintro; exact ha.read_unread _; iexact H
  exact BI.equiv_iff.mp ⟨h₁, h₂⟩

set_option maxHeartbeats 4000000 in
noncomputable def kernelRun0_A (hc0 : cond0_0 i) (hc1 : ¬cond0_1 i)
    (x0 x1 : Vec F S2000x128 .f32) (x2 x3 : Vec F S128x128 .f32) (x4 x5 : Vec F S1x128 .f32) :
    Σ' (L6 : List (View.Piece (Elt F) S2000x256 .f32)), Σ' (LS0 : List (View.Piece (Elt F) S1x256 .f32)), { LS1 : List (View.Piece (Elt F) S1x256 .f32) //
      ∀ (xi7 xi8 : Vec F S1x256 .f32) (E : Set ℕ) (K : PUnit → sProp 𝕄),
        iprop(own c arg1 x0 ∗ own c arg2 x1 ∗ own c arg3 x2 ∗ own c arg4 x3 ∗ own c arg5 x4 ∗ own c arg6 x5 ∗ anyAt c arg7 ∗ own c arg8 xi7 ∗ own c arg9 xi8 ∗ anyAt c arg10 ∗ anyAt c arg11
            ∗ (iprop(own c arg1 x0 ∗ own c arg2 x1 ∗ own c arg3 x2 ∗ own c arg4 x3 ∗ own c arg5 x4 ∗ own c arg6 x5 ∗ wrote c arg7 L6 ∗ own c arg8 xi7 ∗ own c arg9 xi8 ∗ wrote c arg10 LS0 ∗ wrote c arg11 LS1) -∗ K ⟨⟩))
          ⊢ wp frame (wpE (defs₀ (F := F)) Variants.none c none) E (cc0__stage1_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc0__stage1_kernel_eq_skeleton]; unfold cc0__stage1_kernel_skel
    simp only [k0_part1_eq_skeleton]
    rw [own_eq c harg1, own_eq c harg2, own_eq c harg3, own_eq c harg4, own_eq c harg5, own_eq c harg6, own_eq c harg8, own_eq c harg9]
    unfold anyAt wrote owns
    iintro ⟨H0, H1, H2, H3, H4, H5, ⟨%d6, %f6, -, H6⟩, H7, H8, ⟨%ds0, %fs0, -, HS0⟩, ⟨%ds1, %fs1, -, HS1⟩, Hk⟩
    sl_exec (disch := first | exact hc0 | exact hc1)
    sl_step
    iapply Hk
    iframe H0 H1 H2 H3 H4 H5 H7 H8
    isplitl [H6]; · iexists _; iexact H6
    isplitl [HS0]; · iexists _; iexact HS0
    iexists _; iexact HS1

set_option maxHeartbeats 4000000 in
noncomputable def kernelRun0_B (hc0 : ¬cond0_0 i) (hc1 : ¬cond0_1 i)
    (x0 x1 : Vec F S2000x128 .f32) (x2 x3 : Vec F S128x128 .f32) (x4 x5 : Vec F S1x128 .f32) (xs0 xs1 : Vec F S1x256 .f32) :
    Σ' (L6 : List (View.Piece (Elt F) S2000x256 .f32)), Σ' (LS0 : List (View.Piece (Elt F) S1x256 .f32)), { LS1 : List (View.Piece (Elt F) S1x256 .f32) //
      ∀ (xi7 xi8 : Vec F S1x256 .f32) (E : Set ℕ) (K : PUnit → sProp 𝕄),
        iprop(own c arg1 x0 ∗ own c arg2 x1 ∗ own c arg3 x2 ∗ own c arg4 x3 ∗ own c arg5 x4 ∗ own c arg6 x5 ∗ anyAt c arg7 ∗ own c arg8 xi7 ∗ own c arg9 xi8 ∗ own c arg10 xs0 ∗ own c arg11 xs1
            ∗ (iprop(own c arg1 x0 ∗ own c arg2 x1 ∗ own c arg3 x2 ∗ own c arg4 x3 ∗ own c arg5 x4 ∗ own c arg6 x5 ∗ wrote c arg7 L6 ∗ own c arg8 xi7 ∗ own c arg9 xi8 ∗ wrote c arg10 LS0 ∗ wrote c arg11 LS1) -∗ K ⟨⟩))
          ⊢ wp frame (wpE (defs₀ (F := F)) Variants.none c none) E (cc0__stage1_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc0__stage1_kernel_eq_skeleton]; unfold cc0__stage1_kernel_skel
    simp only [k0_part1_eq_skeleton]
    rw [own_eq c harg1, own_eq c harg2, own_eq c harg3, own_eq c harg4, own_eq c harg5, own_eq c harg6, own_eq c harg8, own_eq c harg9, own_eq c harg10, own_eq c harg11]
    unfold anyAt wrote owns
    iintro ⟨H0, H1, H2, H3, H4, H5, ⟨%d6, %f6, -, H6⟩, H7, H8, HS0, HS1, Hk⟩
    sl_exec (disch := first | exact hc0 | exact hc1)
    sl_step
    iapply Hk
    iframe H0 H1 H2 H3 H4 H5 H7 H8
    isplitl [H6]; · iexists _; iexact H6
    isplitl [HS0]; · iexists _; iexact HS0
    iexists _; iexact HS1

set_option maxHeartbeats 4000000 in
noncomputable def kernelRun0_C (hc0 : ¬cond0_0 i) (hc1 : cond0_1 i)
    (x0 x1 : Vec F S2000x128 .f32) (x2 x3 : Vec F S128x128 .f32) (x4 x5 : Vec F S1x128 .f32) (xs0 xs1 : Vec F S1x256 .f32) :
    Σ' (L6 : List (View.Piece (Elt F) S2000x256 .f32)), Σ' (L7 : List (View.Piece (Elt F) S1x256 .f32)), Σ' (L8 : List (View.Piece (Elt F) S1x256 .f32)), Σ' (LS0 : List (View.Piece (Elt F) S1x256 .f32)), { LS1 : List (View.Piece (Elt F) S1x256 .f32) //
      ∀ (E : Set ℕ) (K : PUnit → sProp 𝕄),
        iprop(own c arg1 x0 ∗ own c arg2 x1 ∗ own c arg3 x2 ∗ own c arg4 x3 ∗ own c arg5 x4 ∗ own c arg6 x5 ∗ anyAt c arg7 ∗ anyAt c arg8 ∗ anyAt c arg9 ∗ own c arg10 xs0 ∗ own c arg11 xs1
            ∗ (iprop(own c arg1 x0 ∗ own c arg2 x1 ∗ own c arg3 x2 ∗ own c arg4 x3 ∗ own c arg5 x4 ∗ own c arg6 x5 ∗ wrote c arg7 L6 ∗ wrote c arg8 L7 ∗ wrote c arg9 L8 ∗ wrote c arg10 LS0 ∗ wrote c arg11 LS1) -∗ K ⟨⟩))
          ⊢ wp frame (wpE (defs₀ (F := F)) Variants.none c none) E (cc0__stage1_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__stage1_kernel_eq_skeleton]; unfold cc0__stage1_kernel_skel
    simp only [k0_part1_eq_skeleton]
    rw [own_eq c harg1, own_eq c harg2, own_eq c harg3, own_eq c harg4, own_eq c harg5, own_eq c harg6, own_eq c harg10, own_eq c harg11]
    unfold anyAt wrote owns
    iintro ⟨H0, H1, H2, H3, H4, H5, ⟨%d6, %f6, -, H6⟩, ⟨%d7, %f7, -, H7⟩, ⟨%d8, %f8, -, H8⟩, HS0, HS1, Hk⟩
    sl_exec (disch := first | exact hc0 | exact hc1)
    sl_step
    iapply Hk
    iframe H0 H1 H2 H3 H4 H5
    isplitl [H6]; · iexists _; iexact H6
    isplitl [H7]; · iexists _; iexact H7
    isplitl [H8]; · iexists _; iexact H8
    isplitl [HS0]; · iexists _; iexact HS0
    iexists _; iexact HS1

end Cert.Kernel.Hand

end
-- ==== Proof.KB_R0Frame.lean ====
import proofs.«119049_j60301340836383_1_alg».proof.Proof.KB_R0Run

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hcA0 (t : Fin cfg0.N) (h : t.val = 0) : cond0_0 (grid0.coords t) := (hcond0_0 t).mpr (by omega)
theorem hcA1 (t : Fin cfg0.N) (h : t.val = 0) : ¬cond0_1 (grid0.coords t) := fun hc => by
  have h49 := (hcond0_1 t).mp hc; omega
theorem hcB0 (t : Fin cfg0.N) (h : t.val ≠ 0) : ¬cond0_0 (grid0.coords t) := fun hc => by
  have h0 := (hcond0_0 t).mp hc
  have hN : t.val < 50 := lt_of_lt_of_eq t.isLt (show cfg0.N = 50 from N_0)
  omega
theorem hcB1 (t : Fin cfg0.N) (h : t.val ≠ 49) : ¬cond0_1 (grid0.coords t) := fun hc => by
  have h49 := (hcond0_1 t).mp hc
  have hN : t.val < 50 := lt_of_lt_of_eq t.isLt (show cfg0.N = 50 from N_0)
  omega
theorem hcC1 (t : Fin cfg0.N) (h : t.val = 49) : cond0_1 (grid0.coords t) := (hcond0_1 t).mpr (by omega)

abbrev Outs0 (F : FTy → Type) [FloatOps F] : Type := Vec F S2000x256 .f32 × Vec F S1x256 .f32 × Vec F S1x256 .f32 × Vec F S1x256 .f32 × Vec F S1x256 .f32

abbrev atA0 (c : Dev nD) (t : Fin cfg0.N) (hc0 : cond0_0 (grid0.coords t)) (hc1 : ¬cond0_1 (grid0.coords t)) : Outs0 F :=
  have r := kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t)
  (VO0_6.read (Elt F) (VO0_6.writes (Elt F) VO0_6.junk r.1), VO0_7.read (Elt F) (VO0_7.writes (Elt F) VO0_7.junk []), VO0_8.read (Elt F) (VO0_8.writes (Elt F) VO0_8.junk []), VS0_0.read (Elt F) (VS0_0.writes (Elt F) VS0_0.junk r.2.1), VS0_1.read (Elt F) (VS0_1.writes (Elt F) VS0_1.junk r.2.2.1))

abbrev atB0 (c : Dev nD) (t : Fin cfg0.N) (hc0 : ¬cond0_0 (grid0.coords t)) (hc1 : ¬cond0_1 (grid0.coords t)) (xs0 xs1 : Vec F S1x256 .f32) : Outs0 F :=
  have r := kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) xs0 xs1
  (VO0_6.read (Elt F) (VO0_6.writes (Elt F) VO0_6.junk r.1), VO0_7.read (Elt F) (VO0_7.writes (Elt F) VO0_7.junk []), VO0_8.read (Elt F) (VO0_8.writes (Elt F) VO0_8.junk []), VS0_0.read (Elt F) (VS0_0.writes (Elt F) VS0_0.junk r.2.1), VS0_1.read (Elt F) (VS0_1.writes (Elt F) VS0_1.junk r.2.2.1))

abbrev atC0 (c : Dev nD) (t : Fin cfg0.N) (hc0 : ¬cond0_0 (grid0.coords t)) (hc1 : cond0_1 (grid0.coords t)) (xs0 xs1 : Vec F S1x256 .f32) : Outs0 F :=
  have r := kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) xs0 xs1
  (VO0_6.read (Elt F) (VO0_6.writes (Elt F) VO0_6.junk r.1), VO0_7.read (Elt F) (VO0_7.writes (Elt F) VO0_7.junk r.2.1), VO0_8.read (Elt F) (VO0_8.writes (Elt F) VO0_8.junk r.2.2.1), VS0_0.read (Elt F) (VS0_0.writes (Elt F) VS0_0.junk r.2.2.2.1), VS0_1.read (Elt F) (VS0_1.writes (Elt F) VS0_1.junk r.2.2.2.2.1))

def outsAt0 (V : (c : Dev nD) → (b : Ref sig .tc) → Buf (Elt F) ((c : Thread nD τ).loc b)) (c : Dev nD) : (n : ℕ) → n < cfg0.N → Outs0 F
  | 0, hn => atA0 V c ⟨0, hn⟩ (hcA0 ⟨0, hn⟩ rfl) (hcA1 ⟨0, hn⟩ rfl)
  | n + 1, hn =>
    if h1 : n + 1 = 49 then
      atC0 V c ⟨n + 1, hn⟩ (hcB0 ⟨n + 1, hn⟩ (Nat.succ_ne_zero n)) (hcC1 ⟨n + 1, hn⟩ h1) (outsAt0 V c n (Nat.lt_of_succ_lt hn)).2.2.2.1 (outsAt0 V c n (Nat.lt_of_succ_lt hn)).2.2.2.2
    else
      atB0 V c ⟨n + 1, hn⟩ (hcB0 ⟨n + 1, hn⟩ (Nat.succ_ne_zero n)) (hcB1 ⟨n + 1, hn⟩ h1) (outsAt0 V c n (Nat.lt_of_succ_lt hn)).2.2.2.1 (outsAt0 V c n (Nat.lt_of_succ_lt hn)).2.2.2.2

theorem outsAt0_A (c : Dev nD) (t : Fin cfg0.N) (h : t.val = 0) :
    outsAt0 V c t.val t.isLt = atA0 V c t (hcA0 t h) (hcA1 t h) := by
  obtain ⟨n, hn⟩ := t
  cases n with
  | zero => exact rfl
  | succ n => exact absurd h (Nat.succ_ne_zero n)

theorem outsAt0_B (c : Dev nD) (t : Fin cfg0.N) (h0 : t.val ≠ 0) (h1 : t.val ≠ 49) :
    outsAt0 V c t.val t.isLt = atB0 V c t (hcB0 t h0) (hcB1 t h1)
      (outsAt0 V c (t.val - 1) (Nat.lt_of_le_of_lt (Nat.sub_le _ _) t.isLt)).2.2.2.1
      (outsAt0 V c (t.val - 1) (Nat.lt_of_le_of_lt (Nat.sub_le _ _) t.isLt)).2.2.2.2 := by
  obtain ⟨n, hn⟩ := t
  cases n with
  | zero => exact absurd rfl h0
  | succ n => exact (dif_neg h1).trans rfl

theorem outsAt0_C (c : Dev nD) (t : Fin cfg0.N) (h1 : t.val = 49) :
    outsAt0 V c t.val t.isLt = atC0 V c t (hcB0 t (by omega)) (hcC1 t h1)
      (outsAt0 V c (t.val - 1) (Nat.lt_of_le_of_lt (Nat.sub_le _ _) t.isLt)).2.2.2.1
      (outsAt0 V c (t.val - 1) (Nat.lt_of_le_of_lt (Nat.sub_le _ _) t.isLt)).2.2.2.2 := by
  obtain ⟨n, hn⟩ := t
  cases n with
  | zero => exact absurd (show (0 : ℕ) = 49 from h1) (by decide)
  | succ n => exact (dif_pos h1).trans rfl

def PhiS0 (V : (c : Dev nD) → (b : Ref sig .tc) → Buf (Elt F) ((c : Thread nD τ).loc b)) (c : Dev nD) : (n : ℕ) → n ≤ cfg0.N → sProp 𝕄
  | 0, _ => Pipeline.ΦA spec0 c
  | n + 1, hn => iprop(iprop(owns (c : Thread nD τ) scM0_0 fullShare (outsAt0 V c n hn).2.2.2.1 ∗ owns (c : Thread nD τ) scM0_1 fullShare (outsAt0 V c n hn).2.2.2.2 ∗ rest1 (F := F) c) ∗ (∃ r, prngReg c r))

theorem PhiS0_pos (c : Dev nD) (n : ℕ) (h : n ≤ cfg0.N) (hz : n ≠ 0) :
    PhiS0 V c n h = iprop(iprop(owns (c : Thread nD τ) scM0_0 fullShare (outsAt0 V c (n - 1) (by omega)).2.2.2.1 ∗ owns (c : Thread nD τ) scM0_1 fullShare (outsAt0 V c (n - 1) (by omega)).2.2.2.2 ∗ rest1 (F := F) c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
    | ⟨8, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]
theorem after0_8 (c : Dev nD) (t : Fin cfg0.N) : (dat0 V c).after 8 t = (outsAt0 V c t.val t.isLt).2.2.1 := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 4800000 in
-- by cases on the point's position: first, last, or in between
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl,
    show (dat0 V c).Φ t.succ = iprop(iprop(owns (c : Thread nD τ) scM0_0 fullShare (outsAt0 V c t.val t.isLt).2.2.2.1 ∗ owns (c : Thread nD τ) scM0_1 fullShare (outsAt0 V c t.val t.isLt).2.2.2.2 ∗ rest1 (F := F) c) ∗ (∃ r, prngReg c r)) from rfl,
    show (dat0 V c).Φ t.castSucc = PhiS0 V c t.val (Nat.le_of_lt t.isLt) from by dsimp only [dat0]; simp only [Fin.coe_castSucc]]
  rw [show (dat0 V c).leavesExact 0 t = owns (c : Thread nD τ) (ms0_0 t) fullShare (iblk0 V c 0 t) from by
    unfold Dat.leavesExact; rw [liveAt0 0 (by decide) t, after0_0]]
  rw [show (dat0 V c).leavesExact 1 t = owns (c : Thread nD τ) (ms0_1 t) fullShare (iblk0 V c 1 t) from by
    unfold Dat.leavesExact; rw [liveAt0 1 (by decide) t, after0_1]]
  rw [show (dat0 V c).leavesExact 2 t = owns (c : Thread nD τ) (ms0_2 t) fullShare (iblk0 V c 2 t) from by
    unfold Dat.leavesExact; rw [liveAt0 2 (by decide) t, after0_2]]
  rw [show (dat0 V c).leavesExact 3 t = owns (c : Thread nD τ) (ms0_3 t) fullShare (iblk0 V c 3 t) from by
    unfold Dat.leavesExact; rw [liveAt0 3 (by decide) t, after0_3]]
  rw [show (dat0 V c).leavesExact 4 t = owns (c : Thread nD τ) (ms0_4 t) fullShare (iblk0 V c 4 t) from by
    unfold Dat.leavesExact; rw [liveAt0 4 (by decide) t, after0_4]]
  rw [show (dat0 V c).leavesExact 5 t = owns (c : Thread nD τ) (ms0_5 t) fullShare (iblk0 V c 5 t) from by
    unfold Dat.leavesExact; rw [liveAt0 5 (by decide) t, after0_5]]
  rw [show (dat0 V c).leavesExact 6 t = owns (c : Thread nD τ) (ms0_6 t) fullShare (outsAt0 V c t.val t.isLt).1 from by
    unfold Dat.leavesExact; rw [liveAt0 6 (by decide) t, after0_6]]
  by_cases hA : t.val = 0
  · rw [Dat.leavesExact_idle (dat0 V c) 7 t (idleAt0 7 (by decide) t (by omega)).1 (idleAt0 7 (by decide) t (by omega)).2,
      Dat.leavesExact_idle (dat0 V c) 8 t (idleAt0 8 (by decide) t (by omega)).1 (idleAt0 8 (by decide) t (by omega)).2,
      outsAt0_A V c t hA]
    dsimp only [atA0]
    rw [show PhiS0 V c t.val (Nat.le_of_lt t.isLt) = Pipeline.ΦA spec0 c from by obtain ⟨n, hn⟩ := t; subst hA; rfl, PhiA0_eq]
    iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A c (grid0.coords t) _ _ _ _ _ _ _ _ _ _ _ _ _ _ _ _ _ _ _ _ _ _ (hcA0 t hA) (hcA1 t hA) (iblk0 V c 0 t) (iblk0 V c 1 t) (iblk0 V c 2 t) (iblk0 V c 3 t) (iblk0 V c 4 t) (iblk0 V c 5 t)).2.2.2 _ _ Set.univ _)
    iframe H0 H1 H2 H3 H4 H5 H7 H8 HS0 HS1
    isplitl [H6]; · iexists _; iexact H6
    iintro ⟨H0, H1, H2, H3, H4, H5, ⟨%e6, H6⟩, H7, H8, ⟨%es0, HS0⟩, ⟨%es1, HS1⟩⟩
    ihave H6 := owns_writes c _ VO0_6 _ _ S2000x128.size (by sl_kernel_rfl) $$ H6
    ihave HS0 := owns_writes c _ VS0_0 _ _ S1x256.size (by sl_kernel_rfl) $$ HS0
    ihave HS1 := owns_writes c _ VS0_1 _ _ S1x256.size (by sl_kernel_rfl) $$ HS1
    iframe Hr Hg Ho H0 H1 H2 H3 H4 H5 H6 HS0 HS1
    isplitl [H7]; · iexists _; iexact H7
    iexists _; iexact H8
  · by_cases hC : t.val = 49
    · rw [show (dat0 V c).leavesExact 7 t = owns (c : Thread nD τ) (ms0_7 t) fullShare (outsAt0 V c t.val t.isLt).2.1 from by
          unfold Dat.leavesExact; rw [liveAt0_last 7 t hC, after0_7],
        show (dat0 V c).leavesExact 8 t = owns (c : Thread nD τ) (ms0_8 t) fullShare (outsAt0 V c t.val t.isLt).2.2.1 from by
          unfold Dat.leavesExact; rw [liveAt0_last 8 t hC, after0_8],
        outsAt0_C V c t hC]
      dsimp only [atC0]
      rw [PhiS0_pos V c _ _ hA]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_C c (grid0.coords t) _ _ _ _ _ _ _ _ _ _ _ _ _ _ _ _ _ _ _ _ _ _ (hcB0 t hA) (hcC1 t hC) (iblk0 V c 0 t) (iblk0 V c 1 t) (iblk0 V c 2 t) (iblk0 V c 3 t) (iblk0 V c 4 t) (iblk0 V c 5 t) _ _).2.2.2.2.2 Set.univ _)
      iframe H0 H1 H2 H3 H4 H5 HS0 HS1
      isplitl [H6]; · iexists _; iexact H6
      isplitl [H7]; · iexists _; iexact H7
      isplitl [H8]; · iexists _; iexact H8
      iintro ⟨H0, H1, H2, H3, H4, H5, ⟨%e6, H6⟩, ⟨%e7, H7⟩, ⟨%e8, H8⟩, ⟨%es0, HS0⟩, ⟨%es1, HS1⟩⟩
      ihave H6 := owns_writes c _ VO0_6 _ _ S2000x128.size (by sl_kernel_rfl) $$ H6
      ihave H7 := owns_writes c _ VO0_7 _ _ S1x256.size (by sl_kernel_rfl) $$ H7
      ihave H8 := owns_writes c _ VO0_8 _ _ S1x256.size (by sl_kernel_rfl) $$ H8
      ihave HS0 := owns_writes c _ VS0_0 _ _ S1x128.size (by sl_kernel_rfl) $$ HS0
      ihave HS1 := owns_writes c _ VS0_1 _ _ S1x128.size (by sl_kernel_rfl) $$ HS1
      iframe Hr Hg Ho H0 H1 H2 H3 H4 H5 H6 H7 H8 HS0 HS1
    · rw [Dat.leavesExact_idle (dat0 V c) 7 t (idleAt0 7 (by decide) t hC).1 (idleAt0 7 (by decide) t hC).2,
        Dat.leavesExact_idle (dat0 V c) 8 t (idleAt0 8 (by decide) t hC).1 (idleAt0 8 (by decide) t hC).2,
        outsAt0_B V c t hA hC]
      dsimp only [atB0]
      rw [PhiS0_pos V c _ _ hA]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ (hcB0 t hA) (hcB1 t hC) (iblk0 V c 0 t) (iblk0 V c 1 t) (iblk0 V c 2 t) (iblk0 V c 3 t) (iblk0 V c 4 t) (iblk0 V c 5 t) _ _).2.2.2 _ _ Set.univ _)
      iframe H0 H1 H2 H3 H4 H5 H7 H8 HS0 HS1
      isplitl [H6]; · iexists _; iexact H6
      iintro ⟨H0, H1, H2, H3, H4, H5, ⟨%e6, H6⟩, H7, H8, ⟨%es0, HS0⟩, ⟨%es1, HS1⟩⟩
      ihave H6 := owns_writes c _ VO0_6 _ _ S2000x128.size (by sl_kernel_rfl) $$ H6
      ihave HS0 := owns_writes c _ VS0_0 _ _ S1x128.size (by sl_kernel_rfl) $$ HS0
      ihave HS1 := owns_writes c _ VS0_1 _ _ S1x128.size (by sl_kernel_rfl) $$ HS1
      iframe Hr Hg Ho H0 H1 H2 H3 H4 H5 H6 HS0 HS1
      isplitl [H7]; · iexists _; iexact H7
      iexists _; iexact H8

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = Pipeline.ΦA spec0 c from rfl]

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, Hr⟩, Hg⟩
  iframe Hr Hg
  isplitl [HS0]; · iexists _; iexact HS0
  iexists _; iexact HS1

theorem hout0 (c : Dev nD) : (dat0 V c).Φ (Fin.last cfg0.N) ⊢ Pipeline.ΦA spec0 c :=
  Phi_out0 V c _ (by rw [Fin.val_last]; have : cfg0.N = 50 := N_0; omega)

end Cert.Kernel.Hand

end
-- ==== Proof.KB_R1.lean ====
import proofs.«119049_j60301340836383_1_alg».proof.Proof.Gen.Kernel.Launch
import proofs.«119049_j60301340836383_1_alg».proof.Proof.Gen.Kernel.Skeleton
import proofs.«119049_j60301340836383_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_big : Rect S2000x256 := Rect.unit (s := S2000x256) ![0, 0] S2000x256.size inb_S2000x256_S2000x256_0_0
abbrev r1_row : Rect S1x256 := Rect.unit (s := S1x256) ![0, 0] S1x256.size inb_S1x256_S1x256_0_0

def out1_5 (x0 : Vec F S2000x256 .f32) (x1 x2 x3 x4 : Vec F S1x256 .f32) : Vec F S2000x256 .f32 :=
  View.canon [⟨r1_big, k1_pay1 (View.ld x0 r1_big) (View.ld x1 r1_row) (View.ld x2 r1_row) (View.ld x3 r1_row) (View.ld x4 r1_row)⟩]

theorem cover1_5 (p0 : Vec F S2000x256 .f32) (y : S2000x256.Idx) :
    ∃ pc ∈ ([⟨r1_big, p0⟩] : List (View.Piece (Elt F) S2000x256 .f32)), y ∈ pc.1.set :=
  View.cover_of_tiled [⟨r1_big, p0⟩] S2000x256.size (by rfl) y

set_option maxHeartbeats 1000000 in
theorem sound_kernel1 (c : Dev nD) (E : Set ℕ) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole)
    (x0 : Vec F S2000x256 .f32) (x1 : Vec F S1x256 .f32) (x2 : Vec F S1x256 .f32) (x3 : Vec F S1x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__stage2_kernel i arg1 harg1 arg2 harg2 arg3 harg3 arg4 harg4 arg5 harg5 arg6 harg6) K := by
  simp only [cc1__stage2_kernel_eq_skeleton]; unfold cc1__stage2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; · iexists f0; isplitr; ipureintro; rfl; iexact H0
  isplitl [H1]; · iexists f1; isplitr; ipureintro; rfl; iexact H1
  isplitl [H2]; · iexists f2; isplitr; ipureintro; rfl; iexact H2
  isplitl [H3]; · iexists f3; isplitr; ipureintro; rfl; iexact H3
  isplitl [H4]; · iexists f4; isplitr; ipureintro; rfl; iexact H4
  iexists _; isplitr; swap; · iexact H5
  ipureintro; exact View.read_writes_eq_canon _ _ _ (cover1_5 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  iframe H0 H1 H2 H3 H4
  isplitl [H5]; · iexists _; iexact H5
  iintro ⟨H0, H1, H2, H3, H4, H5⟩
  iframe HΦ Ho H0 H1 H2 H3 H4 H5

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB_Run.lean ====
import proofs.«119049_j60301340836383_1_alg».proof.Proof.KB_R0Frame
import proofs.«119049_j60301340836383_1_alg».proof.Proof.KB_R1
import proofs.«119049_j60301340836383_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev V2 : (c : Dev nD) → (b : Ref sig .tc) → Buf (Elt F) ((c : Thread nD τ).loc b) := fun c b => W2 m ρ c b

abbrev W3 : Dev nD → Valuation τ sig (Elt F) := fun c => StableHlo.after hostOps1 (W2 m ρ c)

abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

abbrev V4 : (c : Dev nD) → (b : Ref sig .tc) → Buf (Elt F) ((c : Thread nD τ).loc b) := fun c b => W4 m ρ c b

theorem exit0_arr (c : Dev nD) (w : Fin cfg0.W) : (dat0 (V1 m ρ) c).arrAt w cfg0.N = V2 m ρ c (Pipeline.arrRef spec0 w) :=
  (W2_arr m ρ c w).symm
theorem exit0_rest (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
theorem exit1_arr (c : Dev nD) (w : Fin cfg1.W) : (dat1 (V3 m ρ) c).arrAt w cfg1.N = V4 m ρ c (Pipeline.arrRef spec1 w) :=
  (W4_arr m ρ c w).symm
theorem exit1_rest (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

theorem W4_of_bypassed (c : Dev nD) (r : Ref sig .tc) (h0 : r ∉ hostOps0_W) (h1 : r ∉ hostOps1_W)
    (hr0 : ∀ w, Pipeline.arrRef spec0 w ≠ r) (hr1 : ∀ w, Pipeline.arrRef spec1 w ≠ r) :
    W4 m ρ c (Proc.devRef .tc r) = m ((c : Thread nD τ).loc r) :=
  calc W4 m ρ c (Proc.devRef .tc r)
    _ = W3 m ρ c (Proc.devRef .tc r) := W4_of_ne m ρ c r hr1
    _ = W2 m ρ c (Proc.devRef .tc r) := StableHlo.after_of_writes_sub hostOps1 _ hostOps1_writes h1
    _ = W1 m ρ c (Proc.devRef .tc r) := W2_of_ne m ρ c r hr0
    _ = W0 m ρ c (Proc.devRef .tc r) := StableHlo.after_of_writes_sub hostOps0 _ hostOps0_writes h0
    _ = m ((c : Thread nD τ).loc r) := rfl

theorem W4_of_input0 (c : Dev nD) (w : Fin cfg0.W) (hw : (cfg0.win w).isOut = false)
    (h0 : Pipeline.arrRef spec0 w ∉ hostOps0_W) (h1 : Pipeline.arrRef spec0 w ∉ hostOps1_W)
    (hr1 : ∀ w', Pipeline.arrRef spec1 w' ≠ Pipeline.arrRef spec0 w) :
    W4 m ρ c (Proc.devRef .tc (Pipeline.arrRef spec0 w)) = m ((c : Thread nD τ).loc (Pipeline.arrRef spec0 w)) :=
  calc W4 m ρ c (Proc.devRef .tc (Pipeline.arrRef spec0 w))
    _ = W3 m ρ c (Proc.devRef .tc (Pipeline.arrRef spec0 w)) := W4_of_ne m ρ c _ hr1
    _ = W2 m ρ c (Proc.devRef .tc (Pipeline.arrRef spec0 w)) := StableHlo.after_of_writes_sub hostOps1 _ hostOps1_writes h1
    _ = W1 m ρ c (Proc.devRef .tc (Pipeline.arrRef spec0 w)) :=
        (W2_arr m ρ c w).trans (((dat0 (V1 m ρ) c).arrAt_in w hw _).trans (A_eq0 (V1 m ρ) c w))
    _ = W0 m ρ c (Proc.devRef .tc (Pipeline.arrRef spec0 w)) := StableHlo.after_of_writes_sub hostOps0 _ hostOps0_writes h0
    _ = m ((c : Thread nD τ).loc (Pipeline.arrRef spec0 w)) := rfl

def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c

abbrev noVar : Variants := Variants.none
abbrev noPair : GSem nD τ sig → Finset Unit := fun _ => ∅
abbrev noLvl : GSem nD τ sig → Unit → ℕ := fun _ _ => 0

abbrev Beside (c : Dev nD) : sProp 𝕄 := iprop((∃ r, prngReg c r) ∗ ∃ W, owes (c : Thread nD τ) (0 : CellTallies nD τ sig Unit) W)

abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar noPair noLvl :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Beside

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev AtEnd (c : Dev nD) : sProp 𝕄 := iprop(StableHlo.held (c : Thread nD τ) (Pipeline.ucRefs τ sig) (W4 m ρ c) ∗ ∃ r, prngReg c r)

set_option backward.isDefEq.respectTransparency.types false in
def stage0 : Pipeline.RegionSeg (pcfgs (F := F)) adm (pdats m ρ) () defs₀ noVar noPair noLvl 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ noPair noLvl 0 fun _ _ => rfl
  pre c := iprop(StableHlo.held (c : Thread nD τ) (Pipeline.ucRefs τ sig) (W1 m ρ c) ∗ Beside c)
  post c := iprop(StableHlo.held (c : Thread nD τ) (Pipeline.ucRefs τ sig) (W2 m ρ c) ∗ Beside c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def stage1 : Pipeline.RegionSeg (pcfgs (F := F)) adm (pdats m ρ) () defs₀ noVar noPair noLvl 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ noPair noLvl 1 fun _ _ => rfl
  pre c := iprop(StableHlo.held (c : Thread nD τ) (Pipeline.ucRefs τ sig) (W3 m ρ c) ∗ Beside c)
  post c := iprop(AtEnd m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (exit1_arr m ρ c) (exit1_rest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev pieces : List (Pipeline.Seg (pcfgs (F := F)) adm (pdats m ρ) () defs₀ noVar noPair noLvl) :=
  [ .host (stretch hostOps0 hostOps0_sub hostOps0_fresh (W0 m ρ)),
    .region (stage0 m ρ),
    .host (stretch hostOps1 hostOps1_sub hostOps1_fresh (W2 m ρ)),
    .region (stage1 m ρ) ]

theorem main_pieces (c : Dev nD) : main (F := F) c = Pipeline.Seg.run (pieces m ρ) := (main_chain c).trans (by chain_rfl)

set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit (pcfgs (F := F)) adm (pdats m ρ) () cellOf_inj emb₁ defs₀ noVar noPair noLvl m ρ main (pieces m ρ)
    (fun c Q => by rw [main_pieces m ρ c])
    (by simp only [pieces, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Beside c)) (Tₙ := AtEnd m ρ)
    (hch := ⟨fun _ => .rfl, fun _ => .rfl, fun _ => .rfl, fun _ => .rfl, fun _ => .rfl⟩)
    (hinit := by
      refine Pipeline.initEach noPair noLvl fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h => h)

theorem run_value : θ_run defs (onTc (τ := τ) (main (F := F))) ⟨m, fun _ => 0, ρ⟩ (fun r => ∀ c : Dev nD,
      r.2.mem ((c.tc : Thread nD τ).loc main_v31) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨(h c _ (mem_uc main_v31 (by decide))).trans (W4_arr m ρ c 5),
      (h c _ (mem_uc main_arg0 (by decide))).trans (W4_of_input0 m ρ c 0 rfl (by decide) (by decide) (by decide)),
      (h c _ (mem_uc main_arg1 (by decide))).trans (W4_of_bypassed m ρ c main_arg1 (by decide) (by decide) (by decide) (by decide)),
      (h c _ (mem_uc main_arg2 (by decide))).trans (W4_of_input0 m ρ c 2 rfl (by decide) (by decide) (by decide)),
      (h c _ (mem_uc main_arg3 (by decide))).trans (W4_of_input0 m ρ c 3 rfl (by decide) (by decide) (by decide)),
      (h c _ (mem_uc main_arg4 (by decide))).trans (W4_of_bypassed m ρ c main_arg4 (by decide) (by decide) (by decide) (by decide)),
      (h c _ (mem_uc main_arg5 (by decide))).trans (W4_of_bypassed m ρ c main_arg5 (by decide) (by decide) (by decide) (by decide)),
      (h c _ (mem_uc main_arg6 (by decide))).trans (W4_of_bypassed m ρ c main_arg6 (by decide) (by decide) (by decide) (by decide)),
      (h c _ (mem_uc main_arg7 (by decide))).trans (W4_of_bypassed m ρ c main_arg7 (by decide) (by decide) (by decide) (by decide)),
      (h c _ (mem_uc main_arg8 (by decide))).trans (W4_of_bypassed m ρ c main_arg8 (by decide) (by decide) (by decide) (by decide)),
      (h c _ (mem_uc main_arg9 (by decide))).trans (W4_of_bypassed m ρ c main_arg9 (by decide) (by decide) (by decide) (by decide))⟩) (run_all m ρ)

end Cert.Kernel.Hand

end
-- ==== Proof.KI_R0Runs.lean ====
import proofs.«119049_j60301340836383_1_alg».proof.Proof.Gen.KernelIdeal.Launch
import proofs.«119049_j60301340836383_1_alg».proof.Proof.Gen.KernelIdeal.Skeleton
import proofs.«119049_j60301340836383_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 50 = 0 :=
  (by decide +kernel : ∀ t : Fin grid0.N, cond0_0 (grid0.coords t) ↔ t.val % 50 = 0)

abbrev cond0_1 (i : grid0.Coords) : Prop := k0_cond2 i = 1#1
theorem hcond0_1 : ∀ t : Fin cfg0.N, cond0_1 (grid0.coords t) ↔ t.val % 50 = 49 :=
  (by decide +kernel : ∀ t : Fin grid0.N, cond0_1 (grid0.coords t) ↔ t.val % 50 = 49)

theorem liveAt0 : ∀ w : Fin cfg0.W, w.val < 7 → ∀ t : Fin cfg0.N, cfg0.idle w (grid0.coords t) = false := by decide +kernel
theorem idleAt0 : ∀ w : Fin cfg0.W, 7 ≤ w.val → ∀ t : Fin cfg0.N, t.val ≠ 49 →
    cfg0.idle w (grid0.coords t) = true ∧ (cfg0.win w).flush t = false := by decide +kernel
theorem liveAt0_last : ∀ w : Fin cfg0.W, ∀ t : Fin cfg0.N, t.val = 49 → cfg0.idle w (grid0.coords t) = false := by decide +kernel

abbrev VO0_6 : View sig .tc .vmem S2000x256 .f32 := (Memref.whole cc0_stg6_0 : Memref sig .tc .vmem S2000x256 .f32).view
abbrev VO0_7 : View sig .tc .vmem S1x256 .f32 := (Memref.whole cc0_stg7_0 : Memref sig .tc .vmem S1x256 .f32).view
abbrev VO0_8 : View sig .tc .vmem S1x256 .f32 := (Memref.whole cc0_stg8_0 : Memref sig .tc .vmem S1x256 .f32).view
abbrev ms0_0 (t : Fin cfg0.N) : Memref sig .tc .vmem S2000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2000x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256 .f32 := win0_8.stage (cfg0.slots t 8)
abbrev hs0_8 (t : Fin cfg0.N) : (ms0_8 t).IsWhole := hstage0_8 ((cfg0.slots t 8).cast nbuf0_8)
abbrev scM0_0 : Memref sig .tc .vmem S1x256 .f32 := Memref.whole cc0_scratch0
abbrev scM0_1 : Memref sig .tc .vmem S1x256 .f32 := Memref.whole cc0_scratch1
abbrev VS0_0 : View sig .tc .vmem S1x256 .f32 := scM0_0.view
abbrev VS0_1 : View sig .tc .vmem S1x256 .f32 := scM0_1.view

def rest1 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest1 (F := F) c) ∗ (∃ r, prngReg c r)) := by
  unfold Pipeline.ΦA rest1; rw [scopedRest0_eq]; simp only [scM0_0, scM0_1, owns_whole]; try rfl

-- pieces that tile the whole shape determine what is read back, whatever was underneath
theorem owns_writes (c : Dev nD) {s : Shape} (m : Memref sig .tc .vmem s .f32) (v : View sig .tc .vmem s .f32)
    (f : m.view.ty.Contents (Elt F)) (L : List (View.Piece (Elt F) s .f32)) (size : Fin s.rank → ℕ) (h : View.Piece.tiledL L size = true) :
    (m.view.loc (c : Thread nD τ) ↦[m.view.set]{fullShare} m.view.writes (Elt F) f L : sProp 𝕄)
      ⊢ owns (c : Thread nD τ) m fullShare (v.read (Elt F) (v.writes (Elt F) v.junk L)) := by
  unfold owns; iintro H; iexists _; isplitr; swap; · iexact H
  ipureintro; exact View.read_writes_of_cover _ _ _ _ _ (View.cover_of_tiledL L size h)

end Cert.KernelIdeal.Hand

end
-- ==== Proof.KI_R0Run.lean ====
import proofs.«119049_j60301340836383_1_alg».proof.Proof.KI_R0Runs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .vmem S2000x128 .f32) (harg1 : arg1.IsWhole) (arg2 : Memref sig .tc .vmem S2000x128 .f32) (harg2 : arg2.IsWhole)
  (arg3 : Memref sig .tc .vmem S128x128 .f32) (harg3 : arg3.IsWhole) (arg4 : Memref sig .tc .vmem S128x128 .f32) (harg4 : arg4.IsWhole)
  (arg5 : Memref sig .tc .vmem S1x128 .f32) (harg5 : arg5.IsWhole) (arg6 : Memref sig .tc .vmem S1x128 .f32) (harg6 : arg6.IsWhole)
  (arg7 : Memref sig .tc .vmem S2000x256 .f32) (harg7 : arg7.IsWhole) (arg8 : Memref sig .tc .vmem S1x256 .f32) (harg8 : arg8.IsWhole)
  (arg9 : Memref sig .tc .vmem S1x256 .f32) (harg9 : arg9.IsWhole) (arg10 : Memref sig .tc .vmem S1x256 .f32) (harg10 : arg10.IsWhole)
  (arg11 : Memref sig .tc .vmem S1x256 .f32) (harg11 : arg11.IsWhole)

abbrev own {s : Shape} (a : Memref sig .tc .vmem s .f32) (x : Vec F s .f32) : sProp 𝕄 := owns (c : Thread nD τ) a fullShare x
abbrev anyAt {s : Shape} (a : Memref sig .tc .vmem s .f32) : sProp 𝕄 := iprop(∃ d, owns (c : Thread nD τ) a fullShare d)
abbrev wrote {s : Shape} (a : Memref sig .tc .vmem s .f32) (L : List (View.Piece (Elt F) s .f32)) : sProp 𝕄 :=
  iprop(∃ f, a.view.loc (c : Thread nD τ) ↦[a.view.set]{fullShare} a.view.writes (Elt F) f L)

-- owning a whole memref at x is the points-to at the contents that read x
theorem own_eq {s : Shape} {a : Memref sig .tc .vmem s .f32} (ha : a.IsWhole) (x : Vec F s .f32) :
    own c a x = (a.view.loc (c : Thread nD τ) ↦[a.view.set]{fullShare} ha.unread x : sProp 𝕄) := by
  have h₁ : own c a x ⊢ (a.view.loc (c : Thread nD τ) ↦[a.view.set]{fullShare} ha.unread x : sProp 𝕄) := by
    unfold own owns; iintro ⟨%f, %hf, H⟩; obtain rfl := ha.eq_unread hf; iexact H
  have h₂ : (a.view.loc (c : Thread nD τ) ↦[a.view.set]{fullShare} ha.unread x : sProp 𝕄) ⊢ own c a x := by
    unfold own owns; iintro H; iexists _; isplitr; ipureintro; exact ha.read_unread _; iexact H
  exact BI.equiv_iff.mp ⟨h₁, h₂⟩

set_option maxHeartbeats 4000000 in
noncomputable def kernelRun0_A (hc0 : cond0_0 i) (hc1 : ¬cond0_1 i)
    (x0 x1 : Vec F S2000x128 .f32) (x2 x3 : Vec F S128x128 .f32) (x4 x5 : Vec F S1x128 .f32) :
    Σ' (L6 : List (View.Piece (Elt F) S2000x256 .f32)), Σ' (LS0 : List (View.Piece (Elt F) S1x256 .f32)), { LS1 : List (View.Piece (Elt F) S1x256 .f32) //
      ∀ (xi7 xi8 : Vec F S1x256 .f32) (E : Set ℕ) (K : PUnit → sProp 𝕄),
        iprop(own c arg1 x0 ∗ own c arg2 x1 ∗ own c arg3 x2 ∗ own c arg4 x3 ∗ own c arg5 x4 ∗ own c arg6 x5 ∗ anyAt c arg7 ∗ own c arg8 xi7 ∗ own c arg9 xi8 ∗ anyAt c arg10 ∗ anyAt c arg11
            ∗ (iprop(own c arg1 x0 ∗ own c arg2 x1 ∗ own c arg3 x2 ∗ own c arg4 x3 ∗ own c arg5 x4 ∗ own c arg6 x5 ∗ wrote c arg7 L6 ∗ own c arg8 xi7 ∗ own c arg9 xi8 ∗ wrote c arg10 LS0 ∗ wrote c arg11 LS1) -∗ K ⟨⟩))
          ⊢ wp frame (wpE (defs₀ (F := F)) Variants.none c none) E (cc0__stage1_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc0__stage1_kernel_eq_skeleton]; unfold cc0__stage1_kernel_skel
    simp only [k0_part1_eq_skeleton]
    rw [own_eq c harg1, own_eq c harg2, own_eq c harg3, own_eq c harg4, own_eq c harg5, own_eq c harg6, own_eq c harg8, own_eq c harg9]
    unfold anyAt wrote owns
    iintro ⟨H0, H1, H2, H3, H4, H5, ⟨%d6, %f6, -, H6⟩, H7, H8, ⟨%ds0, %fs0, -, HS0⟩, ⟨%ds1, %fs1, -, HS1⟩, Hk⟩
    sl_exec (disch := first | exact hc0 | exact hc1)
    sl_step
    iapply Hk
    iframe H0 H1 H2 H3 H4 H5 H7 H8
    isplitl [H6]; · iexists _; iexact H6
    isplitl [HS0]; · iexists _; iexact HS0
    iexists _; iexact HS1

set_option maxHeartbeats 4000000 in
noncomputable def kernelRun0_B (hc0 : ¬cond0_0 i) (hc1 : ¬cond0_1 i)
    (x0 x1 : Vec F S2000x128 .f32) (x2 x3 : Vec F S128x128 .f32) (x4 x5 : Vec F S1x128 .f32) (xs0 xs1 : Vec F S1x256 .f32) :
    Σ' (L6 : List (View.Piece (Elt F) S2000x256 .f32)), Σ' (LS0 : List (View.Piece (Elt F) S1x256 .f32)), { LS1 : List (View.Piece (Elt F) S1x256 .f32) //
      ∀ (xi7 xi8 : Vec F S1x256 .f32) (E : Set ℕ) (K : PUnit → sProp 𝕄),
        iprop(own c arg1 x0 ∗ own c arg2 x1 ∗ own c arg3 x2 ∗ own c arg4 x3 ∗ own c arg5 x4 ∗ own c arg6 x5 ∗ anyAt c arg7 ∗ own c arg8 xi7 ∗ own c arg9 xi8 ∗ own c arg10 xs0 ∗ own c arg11 xs1
            ∗ (iprop(own c arg1 x0 ∗ own c arg2 x1 ∗ own c arg3 x2 ∗ own c arg4 x3 ∗ own c arg5 x4 ∗ own c arg6 x5 ∗ wrote c arg7 L6 ∗ own c arg8 xi7 ∗ own c arg9 xi8 ∗ wrote c arg10 LS0 ∗ wrote c arg11 LS1) -∗ K ⟨⟩))
          ⊢ wp frame (wpE (defs₀ (F := F)) Variants.none c none) E (cc0__stage1_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc0__stage1_kernel_eq_skeleton]; unfold cc0__stage1_kernel_skel
    simp only [k0_part1_eq_skeleton]
    rw [own_eq c harg1, own_eq c harg2, own_eq c harg3, own_eq c harg4, own_eq c harg5, own_eq c harg6, own_eq c harg8, own_eq c harg9, own_eq c harg10, own_eq c harg11]
    unfold anyAt wrote owns
    iintro ⟨H0, H1, H2, H3, H4, H5, ⟨%d6, %f6, -, H6⟩, H7, H8, HS0, HS1, Hk⟩
    sl_exec (disch := first | exact hc0 | exact hc1)
    sl_step
    iapply Hk
    iframe H0 H1 H2 H3 H4 H5 H7 H8
    isplitl [H6]; · iexists _; iexact H6
    isplitl [HS0]; · iexists _; iexact HS0
    iexists _; iexact HS1

set_option maxHeartbeats 4000000 in
noncomputable def kernelRun0_C (hc0 : ¬cond0_0 i) (hc1 : cond0_1 i)
    (x0 x1 : Vec F S2000x128 .f32) (x2 x3 : Vec F S128x128 .f32) (x4 x5 : Vec F S1x128 .f32) (xs0 xs1 : Vec F S1x256 .f32) :
    Σ' (L6 : List (View.Piece (Elt F) S2000x256 .f32)), Σ' (L7 : List (View.Piece (Elt F) S1x256 .f32)), Σ' (L8 : List (View.Piece (Elt F) S1x256 .f32)), Σ' (LS0 : List (View.Piece (Elt F) S1x256 .f32)), { LS1 : List (View.Piece (Elt F) S1x256 .f32) //
      ∀ (E : Set ℕ) (K : PUnit → sProp 𝕄),
        iprop(own c arg1 x0 ∗ own c arg2 x1 ∗ own c arg3 x2 ∗ own c arg4 x3 ∗ own c arg5 x4 ∗ own c arg6 x5 ∗ anyAt c arg7 ∗ anyAt c arg8 ∗ anyAt c arg9 ∗ own c arg10 xs0 ∗ own c arg11 xs1
            ∗ (iprop(own c arg1 x0 ∗ own c arg2 x1 ∗ own c arg3 x2 ∗ own c arg4 x3 ∗ own c arg5 x4 ∗ own c arg6 x5 ∗ wrote c arg7 L6 ∗ wrote c arg8 L7 ∗ wrote c arg9 L8 ∗ wrote c arg10 LS0 ∗ wrote c arg11 LS1) -∗ K ⟨⟩))
          ⊢ wp frame (wpE (defs₀ (F := F)) Variants.none c none) E (cc0__stage1_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__stage1_kernel_eq_skeleton]; unfold cc0__stage1_kernel_skel
    simp only [k0_part1_eq_skeleton]
    rw [own_eq c harg1, own_eq c harg2, own_eq c harg3, own_eq c harg4, own_eq c harg5, own_eq c harg6, own_eq c harg10, own_eq c harg11]
    unfold anyAt wrote owns
    iintro ⟨H0, H1, H2, H3, H4, H5, ⟨%d6, %f6, -, H6⟩, ⟨%d7, %f7, -, H7⟩, ⟨%d8, %f8, -, H8⟩, HS0, HS1, Hk⟩
    sl_exec (disch := first | exact hc0 | exact hc1)
    sl_step
    iapply Hk
    iframe H0 H1 H2 H3 H4 H5
    isplitl [H6]; · iexists _; iexact H6
    isplitl [H7]; · iexists _; iexact H7
    isplitl [H8]; · iexists _; iexact H8
    isplitl [HS0]; · iexists _; iexact HS0
    iexists _; iexact HS1

end Cert.KernelIdeal.Hand

end
-- ==== Proof.KI_R0Frame.lean ====
import proofs.«119049_j60301340836383_1_alg».proof.Proof.KI_R0Run

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hcA0 (t : Fin cfg0.N) (h : t.val = 0) : cond0_0 (grid0.coords t) := (hcond0_0 t).mpr (by omega)
theorem hcA1 (t : Fin cfg0.N) (h : t.val = 0) : ¬cond0_1 (grid0.coords t) := fun hc => by
  have h49 := (hcond0_1 t).mp hc; omega
theorem hcB0 (t : Fin cfg0.N) (h : t.val ≠ 0) : ¬cond0_0 (grid0.coords t) := fun hc => by
  have h0 := (hcond0_0 t).mp hc
  have hN : t.val < 50 := lt_of_lt_of_eq t.isLt (show cfg0.N = 50 from N_0)
  omega
theorem hcB1 (t : Fin cfg0.N) (h : t.val ≠ 49) : ¬cond0_1 (grid0.coords t) := fun hc => by
  have h49 := (hcond0_1 t).mp hc
  have hN : t.val < 50 := lt_of_lt_of_eq t.isLt (show cfg0.N = 50 from N_0)
  omega
theorem hcC1 (t : Fin cfg0.N) (h : t.val = 49) : cond0_1 (grid0.coords t) := (hcond0_1 t).mpr (by omega)

abbrev Outs0 (F : FTy → Type) [FloatOps F] : Type := Vec F S2000x256 .f32 × Vec F S1x256 .f32 × Vec F S1x256 .f32 × Vec F S1x256 .f32 × Vec F S1x256 .f32

abbrev atA0 (c : Dev nD) (t : Fin cfg0.N) (hc0 : cond0_0 (grid0.coords t)) (hc1 : ¬cond0_1 (grid0.coords t)) : Outs0 F :=
  have r := kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t)
  (VO0_6.read (Elt F) (VO0_6.writes (Elt F) VO0_6.junk r.1), VO0_7.read (Elt F) (VO0_7.writes (Elt F) VO0_7.junk []), VO0_8.read (Elt F) (VO0_8.writes (Elt F) VO0_8.junk []), VS0_0.read (Elt F) (VS0_0.writes (Elt F) VS0_0.junk r.2.1), VS0_1.read (Elt F) (VS0_1.writes (Elt F) VS0_1.junk r.2.2.1))

abbrev atB0 (c : Dev nD) (t : Fin cfg0.N) (hc0 : ¬cond0_0 (grid0.coords t)) (hc1 : ¬cond0_1 (grid0.coords t)) (xs0 xs1 : Vec F S1x256 .f32) : Outs0 F :=
  have r := kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) xs0 xs1
  (VO0_6.read (Elt F) (VO0_6.writes (Elt F) VO0_6.junk r.1), VO0_7.read (Elt F) (VO0_7.writes (Elt F) VO0_7.junk []), VO0_8.read (Elt F) (VO0_8.writes (Elt F) VO0_8.junk []), VS0_0.read (Elt F) (VS0_0.writes (Elt F) VS0_0.junk r.2.1), VS0_1.read (Elt F) (VS0_1.writes (Elt F) VS0_1.junk r.2.2.1))

abbrev atC0 (c : Dev nD) (t : Fin cfg0.N) (hc0 : ¬cond0_0 (grid0.coords t)) (hc1 : cond0_1 (grid0.coords t)) (xs0 xs1 : Vec F S1x256 .f32) : Outs0 F :=
  have r := kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) xs0 xs1
  (VO0_6.read (Elt F) (VO0_6.writes (Elt F) VO0_6.junk r.1), VO0_7.read (Elt F) (VO0_7.writes (Elt F) VO0_7.junk r.2.1), VO0_8.read (Elt F) (VO0_8.writes (Elt F) VO0_8.junk r.2.2.1), VS0_0.read (Elt F) (VS0_0.writes (Elt F) VS0_0.junk r.2.2.2.1), VS0_1.read (Elt F) (VS0_1.writes (Elt F) VS0_1.junk r.2.2.2.2.1))

def outsAt0 (V : (c : Dev nD) → (b : Ref sig .tc) → Buf (Elt F) ((c : Thread nD τ).loc b)) (c : Dev nD) : (n : ℕ) → n < cfg0.N → Outs0 F
  | 0, hn => atA0 V c ⟨0, hn⟩ (hcA0 ⟨0, hn⟩ rfl) (hcA1 ⟨0, hn⟩ rfl)
  | n + 1, hn =>
    if h1 : n + 1 = 49 then
      atC0 V c ⟨n + 1, hn⟩ (hcB0 ⟨n + 1, hn⟩ (Nat.succ_ne_zero n)) (hcC1 ⟨n + 1, hn⟩ h1) (outsAt0 V c n (Nat.lt_of_succ_lt hn)).2.2.2.1 (outsAt0 V c n (Nat.lt_of_succ_lt hn)).2.2.2.2
    else
      atB0 V c ⟨n + 1, hn⟩ (hcB0 ⟨n + 1, hn⟩ (Nat.succ_ne_zero n)) (hcB1 ⟨n + 1, hn⟩ h1) (outsAt0 V c n (Nat.lt_of_succ_lt hn)).2.2.2.1 (outsAt0 V c n (Nat.lt_of_succ_lt hn)).2.2.2.2

theorem outsAt0_A (c : Dev nD) (t : Fin cfg0.N) (h : t.val = 0) :
    outsAt0 V c t.val t.isLt = atA0 V c t (hcA0 t h) (hcA1 t h) := by
  obtain ⟨n, hn⟩ := t
  cases n with
  | zero => exact rfl
  | succ n => exact absurd h (Nat.succ_ne_zero n)

theorem outsAt0_B (c : Dev nD) (t : Fin cfg0.N) (h0 : t.val ≠ 0) (h1 : t.val ≠ 49) :
    outsAt0 V c t.val t.isLt = atB0 V c t (hcB0 t h0) (hcB1 t h1)
      (outsAt0 V c (t.val - 1) (Nat.lt_of_le_of_lt (Nat.sub_le _ _) t.isLt)).2.2.2.1
      (outsAt0 V c (t.val - 1) (Nat.lt_of_le_of_lt (Nat.sub_le _ _) t.isLt)).2.2.2.2 := by
  obtain ⟨n, hn⟩ := t
  cases n with
  | zero => exact absurd rfl h0
  | succ n => exact (dif_neg h1).trans rfl

theorem outsAt0_C (c : Dev nD) (t : Fin cfg0.N) (h1 : t.val = 49) :
    outsAt0 V c t.val t.isLt = atC0 V c t (hcB0 t (by omega)) (hcC1 t h1)
      (outsAt0 V c (t.val - 1) (Nat.lt_of_le_of_lt (Nat.sub_le _ _) t.isLt)).2.2.2.1
      (outsAt0 V c (t.val - 1) (Nat.lt_of_le_of_lt (Nat.sub_le _ _) t.isLt)).2.2.2.2 := by
  obtain ⟨n, hn⟩ := t
  cases n with
  | zero => exact absurd (show (0 : ℕ) = 49 from h1) (by decide)
  | succ n => exact (dif_pos h1).trans rfl

def PhiS0 (V : (c : Dev nD) → (b : Ref sig .tc) → Buf (Elt F) ((c : Thread nD τ).loc b)) (c : Dev nD) : (n : ℕ) → n ≤ cfg0.N → sProp 𝕄
  | 0, _ => Pipeline.ΦA spec0 c
  | n + 1, hn => iprop(iprop(owns (c : Thread nD τ) scM0_0 fullShare (outsAt0 V c n hn).2.2.2.1 ∗ owns (c : Thread nD τ) scM0_1 fullShare (outsAt0 V c n hn).2.2.2.2 ∗ rest1 (F := F) c) ∗ (∃ r, prngReg c r))

theorem PhiS0_pos (c : Dev nD) (n : ℕ) (h : n ≤ cfg0.N) (hz : n ≠ 0) :
    PhiS0 V c n h = iprop(iprop(owns (c : Thread nD τ) scM0_0 fullShare (outsAt0 V c (n - 1) (by omega)).2.2.2.1 ∗ owns (c : Thread nD τ) scM0_1 fullShare (outsAt0 V c (n - 1) (by omega)).2.2.2.2 ∗ rest1 (F := F) c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
    | ⟨8, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]
theorem after0_8 (c : Dev nD) (t : Fin cfg0.N) : (dat0 V c).after 8 t = (outsAt0 V c t.val t.isLt).2.2.1 := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 4800000 in
-- by cases on the point's position: first, last, or in between
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl,
    show (dat0 V c).Φ t.succ = iprop(iprop(owns (c : Thread nD τ) scM0_0 fullShare (outsAt0 V c t.val t.isLt).2.2.2.1 ∗ owns (c : Thread nD τ) scM0_1 fullShare (outsAt0 V c t.val t.isLt).2.2.2.2 ∗ rest1 (F := F) c) ∗ (∃ r, prngReg c r)) from rfl,
    show (dat0 V c).Φ t.castSucc = PhiS0 V c t.val (Nat.le_of_lt t.isLt) from by dsimp only [dat0]; simp only [Fin.coe_castSucc]]
  rw [show (dat0 V c).leavesExact 0 t = owns (c : Thread nD τ) (ms0_0 t) fullShare (iblk0 V c 0 t) from by
    unfold Dat.leavesExact; rw [liveAt0 0 (by decide) t, after0_0]]
  rw [show (dat0 V c).leavesExact 1 t = owns (c : Thread nD τ) (ms0_1 t) fullShare (iblk0 V c 1 t) from by
    unfold Dat.leavesExact; rw [liveAt0 1 (by decide) t, after0_1]]
  rw [show (dat0 V c).leavesExact 2 t = owns (c : Thread nD τ) (ms0_2 t) fullShare (iblk0 V c 2 t) from by
    unfold Dat.leavesExact; rw [liveAt0 2 (by decide) t, after0_2]]
  rw [show (dat0 V c).leavesExact 3 t = owns (c : Thread nD τ) (ms0_3 t) fullShare (iblk0 V c 3 t) from by
    unfold Dat.leavesExact; rw [liveAt0 3 (by decide) t, after0_3]]
  rw [show (dat0 V c).leavesExact 4 t = owns (c : Thread nD τ) (ms0_4 t) fullShare (iblk0 V c 4 t) from by
    unfold Dat.leavesExact; rw [liveAt0 4 (by decide) t, after0_4]]
  rw [show (dat0 V c).leavesExact 5 t = owns (c : Thread nD τ) (ms0_5 t) fullShare (iblk0 V c 5 t) from by
    unfold Dat.leavesExact; rw [liveAt0 5 (by decide) t, after0_5]]
  rw [show (dat0 V c).leavesExact 6 t = owns (c : Thread nD τ) (ms0_6 t) fullShare (outsAt0 V c t.val t.isLt).1 from by
    unfold Dat.leavesExact; rw [liveAt0 6 (by decide) t, after0_6]]
  by_cases hA : t.val = 0
  · rw [Dat.leavesExact_idle (dat0 V c) 7 t (idleAt0 7 (by decide) t (by omega)).1 (idleAt0 7 (by decide) t (by omega)).2,
      Dat.leavesExact_idle (dat0 V c) 8 t (idleAt0 8 (by decide) t (by omega)).1 (idleAt0 8 (by decide) t (by omega)).2,
      outsAt0_A V c t hA]
    dsimp only [atA0]
    rw [show PhiS0 V c t.val (Nat.le_of_lt t.isLt) = Pipeline.ΦA spec0 c from by obtain ⟨n, hn⟩ := t; subst hA; rfl, PhiA0_eq]
    iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A c (grid0.coords t) _ _ _ _ _ _ _ _ _ _ _ _ _ _ _ _ _ _ _ _ _ _ (hcA0 t hA) (hcA1 t hA) (iblk0 V c 0 t) (iblk0 V c 1 t) (iblk0 V c 2 t) (iblk0 V c 3 t) (iblk0 V c 4 t) (iblk0 V c 5 t)).2.2.2 _ _ Set.univ _)
    iframe H0 H1 H2 H3 H4 H5 H7 H8 HS0 HS1
    isplitl [H6]; · iexists _; iexact H6
    iintro ⟨H0, H1, H2, H3, H4, H5, ⟨%e6, H6⟩, H7, H8, ⟨%es0, HS0⟩, ⟨%es1, HS1⟩⟩
    ihave H6 := owns_writes c _ VO0_6 _ _ S2000x128.size (by sl_kernel_rfl) $$ H6
    ihave HS0 := owns_writes c _ VS0_0 _ _ S1x256.size (by sl_kernel_rfl) $$ HS0
    ihave HS1 := owns_writes c _ VS0_1 _ _ S1x256.size (by sl_kernel_rfl) $$ HS1
    iframe Hr Hg Ho H0 H1 H2 H3 H4 H5 H6 HS0 HS1
    isplitl [H7]; · iexists _; iexact H7
    iexists _; iexact H8
  · by_cases hC : t.val = 49
    · rw [show (dat0 V c).leavesExact 7 t = owns (c : Thread nD τ) (ms0_7 t) fullShare (outsAt0 V c t.val t.isLt).2.1 from by
          unfold Dat.leavesExact; rw [liveAt0_last 7 t hC, after0_7],
        show (dat0 V c).leavesExact 8 t = owns (c : Thread nD τ) (ms0_8 t) fullShare (outsAt0 V c t.val t.isLt).2.2.1 from by
          unfold Dat.leavesExact; rw [liveAt0_last 8 t hC, after0_8],
        outsAt0_C V c t hC]
      dsimp only [atC0]
      rw [PhiS0_pos V c _ _ hA]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_C c (grid0.coords t) _ _ _ _ _ _ _ _ _ _ _ _ _ _ _ _ _ _ _ _ _ _ (hcB0 t hA) (hcC1 t hC) (iblk0 V c 0 t) (iblk0 V c 1 t) (iblk0 V c 2 t) (iblk0 V c 3 t) (iblk0 V c 4 t) (iblk0 V c 5 t) _ _).2.2.2.2.2 Set.univ _)
      iframe H0 H1 H2 H3 H4 H5 HS0 HS1
      isplitl [H6]; · iexists _; iexact H6
      isplitl [H7]; · iexists _; iexact H7
      isplitl [H8]; · iexists _; iexact H8
      iintro ⟨H0, H1, H2, H3, H4, H5, ⟨%e6, H6⟩, ⟨%e7, H7⟩, ⟨%e8, H8⟩, ⟨%es0, HS0⟩, ⟨%es1, HS1⟩⟩
      ihave H6 := owns_writes c _ VO0_6 _ _ S2000x128.size (by sl_kernel_rfl) $$ H6
      ihave H7 := owns_writes c _ VO0_7 _ _ S1x256.size (by sl_kernel_rfl) $$ H7
      ihave H8 := owns_writes c _ VO0_8 _ _ S1x256.size (by sl_kernel_rfl) $$ H8
      ihave HS0 := owns_writes c _ VS0_0 _ _ S1x128.size (by sl_kernel_rfl) $$ HS0
      ihave HS1 := owns_writes c _ VS0_1 _ _ S1x128.size (by sl_kernel_rfl) $$ HS1
      iframe Hr Hg Ho H0 H1 H2 H3 H4 H5 H6 H7 H8 HS0 HS1
    · rw [Dat.leavesExact_idle (dat0 V c) 7 t (idleAt0 7 (by decide) t hC).1 (idleAt0 7 (by decide) t hC).2,
        Dat.leavesExact_idle (dat0 V c) 8 t (idleAt0 8 (by decide) t hC).1 (idleAt0 8 (by decide) t hC).2,
        outsAt0_B V c t hA hC]
      dsimp only [atB0]
      rw [PhiS0_pos V c _ _ hA]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ (hcB0 t hA) (hcB1 t hC) (iblk0 V c 0 t) (iblk0 V c 1 t) (iblk0 V c 2 t) (iblk0 V c 3 t) (iblk0 V c 4 t) (iblk0 V c 5 t) _ _).2.2.2 _ _ Set.univ _)
      iframe H0 H1 H2 H3 H4 H5 H7 H8 HS0 HS1
      isplitl [H6]; · iexists _; iexact H6
      iintro ⟨H0, H1, H2, H3, H4, H5, ⟨%e6, H6⟩, H7, H8, ⟨%es0, HS0⟩, ⟨%es1, HS1⟩⟩
      ihave H6 := owns_writes c _ VO0_6 _ _ S2000x128.size (by sl_kernel_rfl) $$ H6
      ihave HS0 := owns_writes c _ VS0_0 _ _ S1x128.size (by sl_kernel_rfl) $$ HS0
      ihave HS1 := owns_writes c _ VS0_1 _ _ S1x128.size (by sl_kernel_rfl) $$ HS1
      iframe Hr Hg Ho H0 H1 H2 H3 H4 H5 H6 HS0 HS1
      isplitl [H7]; · iexists _; iexact H7
      iexists _; iexact H8

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = Pipeline.ΦA spec0 c from rfl]

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, Hr⟩, Hg⟩
  iframe Hr Hg
  isplitl [HS0]; · iexists _; iexact HS0
  iexists _; iexact HS1

theorem hout0 (c : Dev nD) : (dat0 V c).Φ (Fin.last cfg0.N) ⊢ Pipeline.ΦA spec0 c :=
  Phi_out0 V c _ (by rw [Fin.val_last]; have : cfg0.N = 50 := N_0; omega)

end Cert.KernelIdeal.Hand

end
-- ==== Proof.KI_R1.lean ====
import proofs.«119049_j60301340836383_1_alg».proof.Proof.Gen.KernelIdeal.Launch
import proofs.«119049_j60301340836383_1_alg».proof.Proof.Gen.KernelIdeal.Skeleton
import proofs.«119049_j60301340836383_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_big : Rect S2000x256 := Rect.unit (s := S2000x256) ![0, 0] S2000x256.size inb_S2000x256_S2000x256_0_0
abbrev r1_row : Rect S1x256 := Rect.unit (s := S1x256) ![0, 0] S1x256.size inb_S1x256_S1x256_0_0

def out1_5 (x0 : Vec F S2000x256 .f32) (x1 x2 x3 x4 : Vec F S1x256 .f32) : Vec F S2000x256 .f32 :=
  View.canon [⟨r1_big, k1_pay1 (View.ld x0 r1_big) (View.ld x1 r1_row) (View.ld x2 r1_row) (View.ld x3 r1_row) (View.ld x4 r1_row)⟩]

theorem cover1_5 (p0 : Vec F S2000x256 .f32) (y : S2000x256.Idx) :
    ∃ pc ∈ ([⟨r1_big, p0⟩] : List (View.Piece (Elt F) S2000x256 .f32)), y ∈ pc.1.set :=
  View.cover_of_tiled [⟨r1_big, p0⟩] S2000x256.size (by rfl) y

set_option maxHeartbeats 1000000 in
theorem sound_kernel1 (c : Dev nD) (E : Set ℕ) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole)
    (x0 : Vec F S2000x256 .f32) (x1 : Vec F S1x256 .f32) (x2 : Vec F S1x256 .f32) (x3 : Vec F S1x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__stage2_kernel i arg1 harg1 arg2 harg2 arg3 harg3 arg4 harg4 arg5 harg5 arg6 harg6) K := by
  simp only [cc1__stage2_kernel_eq_skeleton]; unfold cc1__stage2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; · iexists f0; isplitr; ipureintro; rfl; iexact H0
  isplitl [H1]; · iexists f1; isplitr; ipureintro; rfl; iexact H1
  isplitl [H2]; · iexists f2; isplitr; ipureintro; rfl; iexact H2
  isplitl [H3]; · iexists f3; isplitr; ipureintro; rfl; iexact H3
  isplitl [H4]; · iexists f4; isplitr; ipureintro; rfl; iexact H4
  iexists _; isplitr; swap; · iexact H5
  ipureintro; exact View.read_writes_eq_canon _ _ _ (cover1_5 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  iframe H0 H1 H2 H3 H4
  isplitl [H5]; · iexists _; iexact H5
  iintro ⟨H0, H1, H2, H3, H4, H5⟩
  iframe HΦ Ho H0 H1 H2 H3 H4 H5

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI_Run.lean ====
import proofs.«119049_j60301340836383_1_alg».proof.Proof.KI_R0Frame
import proofs.«119049_j60301340836383_1_alg».proof.Proof.KI_R1
import proofs.«119049_j60301340836383_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev V2 : (c : Dev nD) → (b : Ref sig .tc) → Buf (Elt F) ((c : Thread nD τ).loc b) := fun c b => W2 m ρ c b

abbrev W3 : Dev nD → Valuation τ sig (Elt F) := fun c => StableHlo.after hostOps1 (W2 m ρ c)

abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

abbrev V4 : (c : Dev nD) → (b : Ref sig .tc) → Buf (Elt F) ((c : Thread nD τ).loc b) := fun c b => W4 m ρ c b

theorem exit0_arr (c : Dev nD) (w : Fin cfg0.W) : (dat0 (V1 m ρ) c).arrAt w cfg0.N = V2 m ρ c (Pipeline.arrRef spec0 w) :=
  (W2_arr m ρ c w).symm
theorem exit0_rest (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
theorem exit1_arr (c : Dev nD) (w : Fin cfg1.W) : (dat1 (V3 m ρ) c).arrAt w cfg1.N = V4 m ρ c (Pipeline.arrRef spec1 w) :=
  (W4_arr m ρ c w).symm
theorem exit1_rest (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

theorem W4_of_bypassed (c : Dev nD) (r : Ref sig .tc) (h0 : r ∉ hostOps0_W) (h1 : r ∉ hostOps1_W)
    (hr0 : ∀ w, Pipeline.arrRef spec0 w ≠ r) (hr1 : ∀ w, Pipeline.arrRef spec1 w ≠ r) :
    W4 m ρ c (Proc.devRef .tc r) = m ((c : Thread nD τ).loc r) :=
  calc W4 m ρ c (Proc.devRef .tc r)
    _ = W3 m ρ c (Proc.devRef .tc r) := W4_of_ne m ρ c r hr1
    _ = W2 m ρ c (Proc.devRef .tc r) := StableHlo.after_of_writes_sub hostOps1 _ hostOps1_writes h1
    _ = W1 m ρ c (Proc.devRef .tc r) := W2_of_ne m ρ c r hr0
    _ = W0 m ρ c (Proc.devRef .tc r) := StableHlo.after_of_writes_sub hostOps0 _ hostOps0_writes h0
    _ = m ((c : Thread nD τ).loc r) := rfl

theorem W4_of_input0 (c : Dev nD) (w : Fin cfg0.W) (hw : (cfg0.win w).isOut = false)
    (h0 : Pipeline.arrRef spec0 w ∉ hostOps0_W) (h1 : Pipeline.arrRef spec0 w ∉ hostOps1_W)
    (hr1 : ∀ w', Pipeline.arrRef spec1 w' ≠ Pipeline.arrRef spec0 w) :
    W4 m ρ c (Proc.devRef .tc (Pipeline.arrRef spec0 w)) = m ((c : Thread nD τ).loc (Pipeline.arrRef spec0 w)) :=
  calc W4 m ρ c (Proc.devRef .tc (Pipeline.arrRef spec0 w))
    _ = W3 m ρ c (Proc.devRef .tc (Pipeline.arrRef spec0 w)) := W4_of_ne m ρ c _ hr1
    _ = W2 m ρ c (Proc.devRef .tc (Pipeline.arrRef spec0 w)) := StableHlo.after_of_writes_sub hostOps1 _ hostOps1_writes h1
    _ = W1 m ρ c (Proc.devRef .tc (Pipeline.arrRef spec0 w)) :=
        (W2_arr m ρ c w).trans (((dat0 (V1 m ρ) c).arrAt_in w hw _).trans (A_eq0 (V1 m ρ) c w))
    _ = W0 m ρ c (Proc.devRef .tc (Pipeline.arrRef spec0 w)) := StableHlo.after_of_writes_sub hostOps0 _ hostOps0_writes h0
    _ = m ((c : Thread nD τ).loc (Pipeline.arrRef spec0 w)) := rfl

def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c

abbrev noVar : Variants := Variants.none
abbrev noPair : GSem nD τ sig → Finset Unit := fun _ => ∅
abbrev noLvl : GSem nD τ sig → Unit → ℕ := fun _ _ => 0

abbrev Beside (c : Dev nD) : sProp 𝕄 := iprop((∃ r, prngReg c r) ∗ ∃ W, owes (c : Thread nD τ) (0 : CellTallies nD τ sig Unit) W)

abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar noPair noLvl :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Beside

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev AtEnd (c : Dev nD) : sProp 𝕄 := iprop(StableHlo.held (c : Thread nD τ) (Pipeline.ucRefs τ sig) (W4 m ρ c) ∗ ∃ r, prngReg c r)

set_option backward.isDefEq.respectTransparency.types false in
def stage0 : Pipeline.RegionSeg (pcfgs (F := F)) adm (pdats m ρ) () defs₀ noVar noPair noLvl 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ noPair noLvl 0 fun _ _ => rfl
  pre c := iprop(StableHlo.held (c : Thread nD τ) (Pipeline.ucRefs τ sig) (W1 m ρ c) ∗ Beside c)
  post c := iprop(StableHlo.held (c : Thread nD τ) (Pipeline.ucRefs τ sig) (W2 m ρ c) ∗ Beside c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def stage1 : Pipeline.RegionSeg (pcfgs (F := F)) adm (pdats m ρ) () defs₀ noVar noPair noLvl 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ noPair noLvl 1 fun _ _ => rfl
  pre c := iprop(StableHlo.held (c : Thread nD τ) (Pipeline.ucRefs τ sig) (W3 m ρ c) ∗ Beside c)
  post c := iprop(AtEnd m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (exit1_arr m ρ c) (exit1_rest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev pieces : List (Pipeline.Seg (pcfgs (F := F)) adm (pdats m ρ) () defs₀ noVar noPair noLvl) :=
  [ .host (stretch hostOps0 hostOps0_sub hostOps0_fresh (W0 m ρ)),
    .region (stage0 m ρ),
    .host (stretch hostOps1 hostOps1_sub hostOps1_fresh (W2 m ρ)),
    .region (stage1 m ρ) ]

theorem main_pieces (c : Dev nD) : main (F := F) c = Pipeline.Seg.run (pieces m ρ) := (main_chain c).trans (by chain_rfl)

set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit (pcfgs (F := F)) adm (pdats m ρ) () cellOf_inj emb₁ defs₀ noVar noPair noLvl m ρ main (pieces m ρ)
    (fun c Q => by rw [main_pieces m ρ c])
    (by simp only [pieces, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Beside c)) (Tₙ := AtEnd m ρ)
    (hch := ⟨fun _ => .rfl, fun _ => .rfl, fun _ => .rfl, fun _ => .rfl, fun _ => .rfl⟩)
    (hinit := by
      refine Pipeline.initEach noPair noLvl fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h => h)

theorem run_value : θ_run defs (onTc (τ := τ) (main (F := F))) ⟨m, fun _ => 0, ρ⟩ (fun r => ∀ c : Dev nD,
      r.2.mem ((c.tc : Thread nD τ).loc main_v31) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨(h c _ (mem_uc main_v31 (by decide))).trans (W4_arr m ρ c 5),
      (h c _ (mem_uc main_arg0 (by decide))).trans (W4_of_input0 m ρ c 0 rfl (by decide) (by decide) (by decide)),
      (h c _ (mem_uc main_arg1 (by decide))).trans (W4_of_bypassed m ρ c main_arg1 (by decide) (by decide) (by decide) (by decide)),
      (h c _ (mem_uc main_arg2 (by decide))).trans (W4_of_input0 m ρ c 2 rfl (by decide) (by decide) (by decide)),
      (h c _ (mem_uc main_arg3 (by decide))).trans (W4_of_input0 m ρ c 3 rfl (by decide) (by decide) (by decide)),
      (h c _ (mem_uc main_arg4 (by decide))).trans (W4_of_bypassed m ρ c main_arg4 (by decide) (by decide) (by decide) (by decide)),
      (h c _ (mem_uc main_arg5 (by decide))).trans (W4_of_bypassed m ρ c main_arg5 (by decide) (by decide) (by decide) (by decide)),
      (h c _ (mem_uc main_arg6 (by decide))).trans (W4_of_bypassed m ρ c main_arg6 (by decide) (by decide) (by decide) (by decide)),
      (h c _ (mem_uc main_arg7 (by decide))).trans (W4_of_bypassed m ρ c main_arg7 (by decide) (by decide) (by decide) (by decide)),
      (h c _ (mem_uc main_arg8 (by decide))).trans (W4_of_bypassed m ρ c main_arg8 (by decide) (by decide) (by decide) (by decide)),
      (h c _ (mem_uc main_arg9 (by decide))).trans (W4_of_bypassed m ρ c main_arg9 (by decide) (by decide) (by decide) (by decide))⟩) (run_all m ρ)

end Cert.KernelIdeal.Hand

end
-- ==== Proof.RefTerm.lean ====
import proofs.«119049_j60301340836383_1_alg».proof.Proof.Gen.ReferenceIdeal

noncomputable section

namespace Cert.ReferenceIdeal.Hand

open Cert.ReferenceIdeal Cert.ReferenceIdeal.Gen Idealize.ShloMosaic

variable {F : FTy → Type} [FloatOps F]

/-- The neighbour aggregate: each edge's source row (a negative index counted from the end) times the edge's weight, added into its destination row of zeros. -/
def refHop (a0 : FVec F S100000x128 .f32) (a1 : FVec F S800000 .f32) (a8 a9 : IVec S800000 32) :
    FVec F S100000x128 .f32 :=
  Host.scatterAdd scatter_S100000x128_S800000x1_S800000x128_1_0_0_1
    (broadcastInDim S100000x128 ![] bcast_S_S100000x128 (constant (F := F) S_ .f32 0x00000000#32))
    (broadcastInDim S800000x1 ![0] bcast_S800000_S800000x1_0 a8)
    (mulf
      (broadcastInDim S800000x128 ![0, 1] bcast_S800000x1_S800000x128_0_1
        (broadcastInDim S800000x1 ![0] bcast_S800000_S800000x1_0 a1))
      (Host.gather gather_S100000x128_S800000x1_S800000x128_1_0_n_n_0_1_1128 a0
        (broadcastInDim S800000x1 ![0] bcast_S800000_S800000x1_0
          (select (cmpi .slt a9 (broadcastInDim S800000 ![] bcast_S_S800000 (constantI S_ 32 0#32)))
            (addi a9 (broadcastInDim S800000 ![] bcast_S_S800000 (constantI S_ 32 100000#32)))
            a9))))

/-- One layer: `max (x · w) 0 + b`, the bias laid along the rows. -/
def refAct (x : FVec F S100000x128 .f32) (w : FVec F S128x128 .f32) (b : FVec F S128 .f32) : FVec F S100000x128 .f32 :=
  addf
    (maximumf (Host.dotGeneral dot_S100000x128_S128x128_S100000x128_1_0_0_1_n_n none x w)
      (broadcastInDim S100000x128 ![] bcast_S_S100000x128 (constant (F := F) S_ .f32 0x00000000#32)))
    (broadcastInDim S100000x128 ![0, 1] bcast_S1x128_S100000x128_0_1 (broadcastInDim S1x128 ![1] bcast_S128_S1x128_1 b))

/-- The 256-wide rows: the features' layer beside the aggregate's. -/
def refP (a0 hop : FVec F S100000x128 .f32) (a2 a3 : FVec F S128x128 .f32) (a4 a5 : FVec F S128 .f32) :
    FVec F S100000x256 .f32 :=
  concatenate S100000x256 1 [⟨S100000x128, refAct a0 a2 a4⟩, ⟨S100000x128, refAct hop a3 a5⟩]
    concatenates_S100000x128_S100000x128_S100000x256_d1

/-- The column means: each column's sum over the rows, divided by the row count. -/
def refMean (p : FVec F S100000x256 .f32) : FVec F S256 .f32 :=
  Host.divf
    (Host.reduceAdd p (constant (F := F) S_ .f32 0x00000000#32) reducesTo_S100000x256_S256_d0 h_S_)
    (broadcastInDim S256 ![] bcast_S_S256 (constant (F := F) S_ .f32 0x47C35000#32))

/-- The deviations from the column means, the means computed as a 1 × 256 row. -/
def refDev (p : FVec F S100000x256 .f32) : FVec F S100000x256 .f32 :=
  subf p
    (broadcastInDim S100000x256 ![0, 1] bcast_S1x256_S100000x256_0_1
      (Host.divf
        (broadcastInDim S1x256 ![1] bcast_S256_S1x256_1
          (Host.reduceAdd p (constant (F := F) S_ .f32 0x00000000#32) reducesTo_S100000x256_S256_d0 h_S_))
        (broadcastInDim S1x256 ![] bcast_S_S1x256 (constant (F := F) S_ .f32 0x47C35000#32))))

/-- The variance's divisor: the row count less the integer zero. -/
def refN : FVec F S_ .f32 := subf (constant (F := F) S_ .f32 0x47C35000#32) (sitofp .f32 (constantI S_ 32 0#32))

/-- The column variances: the mean of the squared deviations where the divisor is positive, not-a-number elsewhere. -/
def refVar (p : FVec F S100000x256 .f32) : FVec F S256 .f32 :=
  select (broadcastInDim S256 ![] bcast_S_S256 (cmpf .ogt refN (constant (F := F) S_ .f32 0x00000000#32)))
    (Host.divf
      (Host.reduceAdd (mulf (refDev p) (refDev p)) (constant (F := F) S_ .f32 0x00000000#32)
        reducesTo_S100000x256_S256_d0 h_S_)
      (broadcastInDim S256 ![] bcast_S_S256 refN))
    (broadcastInDim S256 ![] bcast_S_S256 (constant (F := F) S_ .f32 0x7FC00000#32))

/-- A 256-vector laid along the rows. -/
def refRows (v : FVec F S256 .f32) : FVec F S100000x256 .f32 :=
  broadcastInDim S100000x256 ![0, 1] bcast_S1x256_S100000x256_0_1 (broadcastInDim S1x256 ![1] bcast_S256_S1x256_1 v)

/-- `(p - mu) * rsqrt (v + 1e-5) * a6 + a7`, every vector laid along the rows. -/
def refNorm (p : FVec F S100000x256 .f32) (mu v a6 a7 : FVec F S256 .f32) : FVec F S100000x256 .f32 :=
  addf
    (mulf
      (mulf (subf p (refRows mu))
        (refRows (Host.rsqrt
          (addf v (broadcastInDim S256 ![] bcast_S_S256 (constant (F := F) S_ .f32 0x3727C5AC#32))))))
      (refRows a6))
    (refRows a7)

/-- The result: the 256-wide rows normalised by their own column means and variances. -/
def refOut (a0 : FVec F S100000x128 .f32) (a1 : FVec F S800000 .f32) (a2 a3 : FVec F S128x128 .f32)
    (a4 a5 : FVec F S128 .f32) (a6 a7 : FVec F S256 .f32) (a8 a9 : IVec S800000 32) : FVec F S100000x256 .f32 :=
  refNorm (refP a0 (refHop a0 a1 a8 a9) a2 a3 a4 a5)
    (refMean (refP a0 (refHop a0 a1 a8 a9) a2 a3 a4 a5))
    (refVar (refP a0 (refHop a0 a1 a8 a9) a2 a3 a4 a5)) a6 a7

end Cert.ReferenceIdeal.Hand

end
-- ==== Proof.RefRun.lean ====
import proofs.«119049_j60301340836383_1_alg».proof.Proof.RefTerm
import proofs.«119049_j60301340836383_1_alg».proof.Proof.Gen.Pre_finite_inputs
import proofs.«119049_j60301340836383_1_alg».proof.Defs
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's seventy-five operations in order, its three calls replaced by their bodies. -/
abbrev ops : List (HloOp τ sig (Elt F)) :=
  [ unary main_arg1 main_v0 (broadcastInDim S800000x1 ![0] bcast_S800000_S800000x1_0),
    nullary main_c (constantI S_ 32 0#32),
    unary main_c main_v1 (broadcastInDim S800000 ![] bcast_S_S800000),
    binary main_arg9 main_v1 main_v2 (cmpi .slt),
    nullary main_c_0 (constantI S_ 32 100000#32),
    unary main_c_0 main_v3 (broadcastInDim S800000 ![] bcast_S_S800000),
    binary main_arg9 main_v3 main_v4 addi,
    ternary main_v2 main_v4 main_arg9 main_v5 select,
    unary main_v5 main_v6 (broadcastInDim S800000x1 ![0] bcast_S800000_S800000x1_0),
    binary main_arg0 main_v6 main_v7 (Host.gather gather_S100000x128_S800000x1_S800000x128_1_0_n_n_0_1_1128),
    unary main_v0 main_v8 (broadcastInDim S800000x128 ![0, 1] bcast_S800000x1_S800000x128_0_1),
    binary main_v8 main_v7 main_v9 mulf,
    nullary main_cst (constant S_ .f32 0x00000000#32),
    unary main_cst main_v10 (broadcastInDim S100000x128 ![] bcast_S_S100000x128),
    unary main_arg8 main_v11 (broadcastInDim S800000x1 ![0] bcast_S800000_S800000x1_0),
    ternary main_v10 main_v11 main_v9 main_v12 (Host.scatterAdd scatter_S100000x128_S800000x1_S800000x128_1_0_0_1),
    binary main_arg0 main_arg2 main_v13 (Host.dotGeneral dot_S100000x128_S128x128_S100000x128_1_0_0_1_n_n none),
    nullary main_call0_cst (constant S_ .f32 0x00000000#32),
    unary main_call0_cst main_call0_v0 (broadcastInDim S100000x128 ![] bcast_S_S100000x128),
    binary main_v13 main_call0_v0 main_v14 maximumf,
    unary main_arg4 main_v15 (broadcastInDim S1x128 ![1] bcast_S128_S1x128_1),
    unary main_v15 main_v16 (broadcastInDim S100000x128 ![0, 1] bcast_S1x128_S100000x128_0_1),
    binary main_v14 main_v16 main_v17 addf,
    binary main_v12 main_arg3 main_v18 (Host.dotGeneral dot_S100000x128_S128x128_S100000x128_1_0_0_1_n_n none),
    nullary main_call1_cst (constant S_ .f32 0x00000000#32),
    unary main_call1_cst main_call1_v0 (broadcastInDim S100000x128 ![] bcast_S_S100000x128),
    binary main_v18 main_call1_v0 main_v19 maximumf,
    unary main_arg5 main_v20 (broadcastInDim S1x128 ![1] bcast_S128_S1x128_1),
    unary main_v20 main_v21 (broadcastInDim S100000x128 ![0, 1] bcast_S1x128_S100000x128_0_1),
    binary main_v19 main_v21 main_v22 addf,
    binary main_v17 main_v22 main_v23 (fun a b => concatenate S100000x256 1 [⟨S100000x128, a⟩, ⟨S100000x128, b⟩] concatenates_S100000x128_S100000x128_S100000x256_d1),
    nullary main_cst_1 (constant S_ .f32 0x00000000#32),
    binary main_v23 main_cst_1 main_v24 (fun x v => Host.reduceAdd x v reducesTo_S100000x256_S256_d0 h_S_),
    nullary main_cst_2 (constant S_ .f32 0x47C35000#32),
    unary main_cst_2 main_v25 (broadcastInDim S256 ![] bcast_S_S256),
    binary main_v24 main_v25 main_v26 Host.divf,
    nullary main_c_3 (constantI S_ 32 0#32),
    nullary main_call2_cst (constant S_ .f32 0x00000000#32),
    binary main_v23 main_call2_cst main_call2_v0 (fun x v => Host.reduceAdd x v reducesTo_S100000x256_S256_d0 h_S_),
    unary main_call2_v0 main_call2_v1 (broadcastInDim S1x256 ![1] bcast_S256_S1x256_1),
    nullary main_call2_cst_0 (constant S_ .f32 0x47C35000#32),
    unary main_call2_cst_0 main_call2_v2 (broadcastInDim S1x256 ![] bcast_S_S1x256),
    binary main_call2_v1 main_call2_v2 main_call2_v3 Host.divf,
    unary main_call2_v3 main_call2_v4 (broadcastInDim S100000x256 ![0, 1] bcast_S1x256_S100000x256_0_1),
    binary main_v23 main_call2_v4 main_call2_v5 subf,
    binary main_call2_v5 main_call2_v5 main_call2_v6 mulf,
    unary main_c_3 main_call2_v7 (sitofp .f32),
    nullary main_call2_cst_1 (constant S_ .f32 0x47C35000#32),
    binary main_call2_cst_1 main_call2_v7 main_call2_v8 subf,
    nullary main_call2_cst_2 (constant S_ .f32 0x00000000#32),
    binary main_call2_v6 main_call2_cst_2 main_call2_v9 (fun x v => Host.reduceAdd x v reducesTo_S100000x256_S256_d0 h_S_),
    unary main_call2_v8 main_call2_v10 (broadcastInDim S256 ![] bcast_S_S256),
    binary main_call2_v9 main_call2_v10 main_call2_v11 Host.divf,
    nullary main_call2_cst_3 (constant S_ .f32 0x00000000#32),
    binary main_call2_v8 main_call2_cst_3 main_call2_v12 (cmpf .ogt),
    nullary main_call2_cst_4 (constant S_ .f32 0x7FC00000#32),
    unary main_call2_cst_4 main_call2_call0_v0 id,
    unary main_call2_call0_v0 main_call2_call0_v1 (broadcastInDim S256 ![] bcast_S_S256),
    ternary main_call2_v12 main_call2_v11 main_call2_call0_v1 main_v27 (fun p a b => select (broadcastInDim S256 ![] bcast_S_S256 p) a b),
    unary main_v26 main_v28 (broadcastInDim S1x256 ![1] bcast_S256_S1x256_1),
    unary main_v28 main_v29 (broadcastInDim S100000x256 ![0, 1] bcast_S1x256_S100000x256_0_1),
    binary main_v23 main_v29 main_v30 subf,
    nullary main_cst_4 (constant S_ .f32 0x3727C5AC#32),
    unary main_cst_4 main_v31 (broadcastInDim S256 ![] bcast_S_S256),
    binary main_v27 main_v31 main_v32 addf,
    unary main_v32 main_v33 Host.rsqrt,
    unary main_v33 main_v34 (broadcastInDim S1x256 ![1] bcast_S256_S1x256_1),
    unary main_v34 main_v35 (broadcastInDim S100000x256 ![0, 1] bcast_S1x256_S100000x256_0_1),
    binary main_v30 main_v35 main_v36 mulf,
    unary main_arg6 main_v37 (broadcastInDim S1x256 ![1] bcast_S256_S1x256_1),
    unary main_v37 main_v38 (broadcastInDim S100000x256 ![0, 1] bcast_S1x256_S100000x256_0_1),
    binary main_v36 main_v38 main_v39 mulf,
    unary main_arg7 main_v40 (broadcastInDim S1x256 ![1] bcast_S256_S1x256_1),
    unary main_v40 main_v41 (broadcastInDim S100000x256 ![0, 1] bcast_S1x256_S100000x256_0_1),
    binary main_v39 main_v41 main_v42 addf ]

theorem main_eq (c : Dev nD) : main (F := F) c = seq ops := rfl

theorem ops_sub : (ops : List (HloOp τ sig (Elt F))).Forall fun op => op.bufs ⊆ tcRefs τ sig := by
  simp only [ops, List.Forall, nullary_bufs_sub, unary_bufs_sub, binary_bufs_sub, ternary_bufs_sub, and_self]

/-- Every buffer but the ten arguments', which come first. -/
abbrev written : List (Ref sig .tc) := ((List.finRange 85).drop 10).map fun i => ⟨.hbm, i, rfl⟩

theorem ops_writes : (ops : List (HloOp τ sig (Elt F))).Forall fun op =>
    op.writes ⊆ (written.map (Proc.devRef (τ := τ) .tc)).toFinset := by
  simp only [ops, List.Forall, nullary_writes, unary_writes, binary_writes, ternary_writes, Finset.singleton_subset_iff,
    List.mem_toFinset]
  and_intros <;> exact List.mem_map_of_mem (by decide)

/-- The reference's result of the ten arguments' contents, however they are held. -/
def refOutOf (a : (b : Ref sig .tc) → b.ty.Contents (Elt F)) : FVec F S100000x256 .f32 :=
  refOut (a main_arg0) (a main_arg1) (a main_arg2) (a main_arg3) (a main_arg4) (a main_arg5) (a main_arg6)
    (a main_arg7) (a main_arg8) (a main_arg9)

theorem res_eq (V : Valuation τ sig (Elt F)) :
    after ops V (Proc.devRef .tc main_v42) = refOutOf fun b => V (Proc.devRef .tc b) := by
  after_results_simp
  rfl

/-- The result buffer ends at the reference's term of the launch arguments; unwritten buffers end as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v42) = refOutOf (fun b => m ((c.tc : Thread nD τ).loc b))
      ∧ ∀ b ∉ written, r.2.mem ((c.tc : Thread nD τ).loc b) = m ((c.tc : Thread nD τ).loc b) :=
  (θ_run defs _ _).mono
    (fun _ h c => ⟨(h c _).trans (res_eq _), fun b hb => (h c b).trans (after_of_writes_sub ops _ ops_writes hb)⟩)
    (run_seq (by decide) (by decide) defs main (fun _ => ops) main_eq (fun _ => ops_sub) m ρ)

theorem frame_ri : Cert.frame_ReferenceIdeal := fun m ρ _ =>
  (θ_run Cert.ReferenceIdeal.defs _ _).mono (fun _ h c => by and_intros <;> exact (h c).2 _ (by decide))
    (run (F := Ideal) m ρ)

end Cert.ReferenceIdeal.Hand

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev SX : Shape := ⟨2, ![100000, 128]⟩
abbrev SW : Shape := ⟨2, ![128, 128]⟩
abbrev SB : Shape := ⟨1, ![128]⟩
abbrev SG : Shape := ⟨1, ![256]⟩
abbrev SO : Shape := ⟨2, ![100000, 256]⟩

/-- The row count and the small constant, as the f32 words both programs write. -/
def nN : EReal := Ideal.ofBits .f32 0x47C35000#32
def eps : EReal := Ideal.ofBits .f32 0x3727C5AC#32

/-- One layer at row `r`, column `q`: the row's product with the weight column, clipped at zero, plus the bias. -/
def act (x : SX.Idx → EReal) (w : SW.Idx → EReal) (b : SB.Idx → EReal) (r : Fin 100000) (q : Fin 128) : EReal :=
  max (∑ k : Fin 128, x (ix2 r k) * w (ix2 k q)) 0 + b (ix1 q)

/-- The 256-wide row: the features' layer in columns 0–127, the aggregate's in 128–255. -/
def P (feat hop : SX.Idx → EReal) (w0 w1 : SW.Idx → EReal) (b0 b1 : SB.Idx → EReal) (r : Fin 100000) (q : Fin 256) : EReal :=
  if h : q.val < 128 then act feat w0 b0 r ⟨q.val, h⟩ else act hop w1 b1 r ⟨q.val - 128, by omega⟩

variable (p : Fin 100000 → Fin 256 → EReal)

def colSum (q : Fin 256) : EReal := ∑ r : Fin 100000, p r q
def colSumSq (q : Fin 256) : EReal := ∑ r : Fin 100000, p r q * p r q

def mean (q : Fin 256) : EReal := Ideal.div (colSum p q) nN

/-- The variance as the mean of the squares minus the square of the mean. -/
def varK (q : Fin 256) : EReal := Ideal.div (colSumSq p q) nN - mean p q * mean p q

/-- The variance as the mean of the squared deviations. -/
def varR (q : Fin 256) : EReal := Ideal.div (∑ r : Fin 100000, (p r q - mean p q) * (p r q - mean p q)) nN

/-- A column normalised with a given variance `v`, scaled and shifted. -/
def norm (v : Fin 256 → EReal) (g b : SG.Idx → EReal) (r : Fin 100000) (q : Fin 256) : EReal :=
  (p r q - mean p q) * Ideal.rsqrt (v q + eps) * g (ix1 q) + b (ix1 q)

def outK (g b : SG.Idx → EReal) : SO.Idx → EReal := fun i => norm p (varK p) g b (i 0) (i 1)
def outR (g b : SG.Idx → EReal) : SO.Idx → EReal := fun i => norm p (varR p) g b (i 0) (i 1)

theorem nN_eq : nN = ((100000 : ℝ) : EReal) := by
  unfold nN
  simp [Ideal.ofBits, Ideal.ieee, -EReal.coe_mul]; norm_num

theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- Over the reals `Σ (f − μ)² = Σ f² − 2 μ Σ f + N μ²`, which at `μ = Σ f / N` is `Σ f² − N μ²`. -/
theorem real_var {ι : Type} [Fintype ι] (f : ι → ℝ) (N : ℝ) (hN : N ≠ 0) (hcard : (Fintype.card ι : ℝ) = N) :
    (∑ i, f i * f i) * (1 / N) - (∑ i, f i) * (1 / N) * ((∑ i, f i) * (1 / N))
      = (∑ i, (f i - (∑ i, f i) * (1 / N)) * (f i - (∑ i, f i) * (1 / N))) * (1 / N) := by
  have hdev : ∀ μ : ℝ, ∑ i, (f i - μ) * (f i - μ) = (∑ i, f i * f i) - 2 * μ * (∑ i, f i) + N * (μ * μ) := by
    intro μ
    have hexp : ∀ i, (f i - μ) * (f i - μ) = f i * f i - 2 * μ * f i + μ * μ := fun i => by ring
    simp only [hexp]
    rw [Finset.sum_add_distrib, Finset.sum_sub_distrib, ← Finset.mul_sum, Finset.sum_const, Finset.card_univ,
      nsmul_eq_mul, hcard]
  rw [hdev]
  field_simp
  ring

/-- With real entries every sum and quotient is the real one, and the two variances agree by `real_var`. -/
theorem varK_eq_varR (hfin : ∀ r q, ∃ x : ℝ, p r q = (x : EReal)) (q : Fin 256) : varK p q = varR p q := by
  choose f hf using hfin
  have hN : (100000 : ℝ) ≠ 0 := by norm_num
  have hcard : (Fintype.card (Fin 100000) : ℝ) = 100000 := by rw [Fintype.card_fin]; norm_num
  have hmean : mean p q = (((∑ r, f r q) * (1 / 100000) : ℝ) : EReal) := by
    unfold mean colSum
    simp only [hf]
    rw [coe_sum, nN_eq, Ideal.div_coe hN, ← EReal.coe_mul]
  unfold varK varR colSumSq
  rw [hmean]
  simp only [hf, ← EReal.coe_mul, ← EReal.coe_sub]
  rw [coe_sum, coe_sum, nN_eq, Ideal.div_coe hN, Ideal.div_coe hN]
  simp only [← EReal.coe_mul, ← EReal.coe_sub]
  rw [EReal.coe_eq_coe_iff]
  exact real_var (fun r => f r q) 100000 hN hcard

theorem outK_eq_outR (hfin : ∀ r q, ∃ x : ℝ, p r q = (x : EReal)) (g b : SG.Idx → EReal) : outK p g b = outR p g b := by
  unfold outK outR
  rw [funext (varK_eq_varR p hfin)]

end Cert.Spec

end
-- ==== Proof.KI_Host.lean ====
import proofs.«119049_j60301340836383_1_alg».proof.Proof.Gen.KernelIdeal.Launch
import proofs.«119049_j60301340836383_1_alg».proof.Proof.Spec
import proofs.«119049_j60301340836383_1_alg».proof.Proof.RefTerm
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HandHost

open Cert.KernelIdeal Cert.KernelIdeal.Gen Idealize.ShloMosaic Idealize.ShloMosaic.ValueIdx Idealize.ShloMosaic.StableHlo

variable {F : FTy → Type} [FloatOps F]

/-- A 128-vector as the one row of a 1 × 128 array. -/
def kRow128 (b : FVec F S128 .f32) : FVec F S1x128 .f32 := shapeCast S1x128 b shapeCasts_S128_S1x128

/-- A 256-vector as the one row of a 1 × 256 array. -/
def kRow256 (g : FVec F S256 .f32) : FVec F S1x256 .f32 := shapeCast S1x256 g shapeCasts_S256_S1x256

/-- The column means as a 256-vector: the row `s` of column sums over the row count. -/
def kMean (s : FVec F S1x256 .f32) : FVec F S256 .f32 :=
  Host.divf (shapeCast S256 s shapeCasts_S1x256_S256)
    (broadcastInDim S256 ![] bcast_S_S256 (constant (F := F) S_ .f32 0x47C35000#32))

/-- The column means as a 1 × 256 row. -/
def kMeanRow (s : FVec F S1x256 .f32) : FVec F S1x256 .f32 := kRow256 (kMean s)

/-- `rsqrt (ss / n - (s / n) * (s / n) + 1e-5)` per column, as a 1 × 256 row. -/
def kInvRow (s ss : FVec F S1x256 .f32) : FVec F S1x256 .f32 :=
  kRow256
    (Host.rsqrt
      (addf (subf (kMean ss) (mulf (kMean s) (kMean s)))
        (broadcastInDim S256 ![] bcast_S_S256 (constant (F := F) S_ .f32 0x3727C5AC#32))))

section
variable (W : Valuation τ sig (Elt F))

/-- The first stretch computes the reference's neighbour aggregate: it is the same chain of operations. -/
theorem host0_v12 :
    after hostOps0 W (Proc.devRef .tc main_v12)
      = Cert.ReferenceIdeal.Hand.refHop (W (Proc.devRef .tc main_arg0)) (W (Proc.devRef .tc main_arg1))
          (W (Proc.devRef .tc main_arg8)) (W (Proc.devRef .tc main_arg9)) := by
  after_results
  rfl

theorem host0_v13 : after hostOps0 W (Proc.devRef .tc main_v13) = kRow128 (W (Proc.devRef .tc main_arg4)) := by
  after_results
  rfl

theorem host0_v14 : after hostOps0 W (Proc.devRef .tc main_v14) = kRow128 (W (Proc.devRef .tc main_arg5)) := by
  after_results
  rfl

theorem host1_v27 : after hostOps1 W (Proc.devRef .tc main_v27) = kMeanRow (W (Proc.devRef .tc main_v15_1)) := by
  after_results
  rfl

theorem host1_v28 :
    after hostOps1 W (Proc.devRef .tc main_v28) = kInvRow (W (Proc.devRef .tc main_v15_1)) (W (Proc.devRef .tc main_v15_2)) := by
  after_results
  rfl

theorem host1_v29 : after hostOps1 W (Proc.devRef .tc main_v29) = kRow256 (W (Proc.devRef .tc main_arg6)) := by
  after_results
  rfl

theorem host1_v30 : after hostOps1 W (Proc.devRef .tc main_v30) = kRow256 (W (Proc.devRef .tc main_arg7)) := by
  after_results
  rfl

end

theorem kRow128_apply (b : FVec F S128 .f32) (q : Fin 128) : kRow128 b (ix2 (0 : Fin 1) q) = b (ix1 q) :=
  shapeCast_a_1a_apply b shapeCasts_S128_S1x128 0 q

theorem kRow256_apply (g : FVec F S256 .f32) (q : Fin 256) : kRow256 g (ix2 (0 : Fin 1) q) = g (ix1 q) :=
  shapeCast_a_1a_apply g shapeCasts_S256_S1x256 0 q

theorem kMean_apply (s : FVec Ideal S1x256 .f32) (q : Fin 256) :
    kMean (F := Ideal) s (ix1 q) = Ideal.div (s (ix2 (0 : Fin 1) q)) Cert.Spec.nN := by
  show Ideal.div (shapeCast S256 s shapeCasts_S1x256_S256 (ix1 q)) Cert.Spec.nN = _
  rw [shapeCast_1a_a_apply]

theorem kMeanRow_apply (s : FVec Ideal S1x256 .f32) (q : Fin 256) :
    kMeanRow (F := Ideal) s (ix2 (0 : Fin 1) q) = Ideal.div (s (ix2 (0 : Fin 1) q)) Cert.Spec.nN := by
  unfold kMeanRow
  rw [kRow256_apply, kMean_apply]

theorem kInvRow_apply (s ss : FVec Ideal S1x256 .f32) (q : Fin 256) :
    kInvRow (F := Ideal) s ss (ix2 (0 : Fin 1) q)
      = Ideal.rsqrt (Ideal.div (ss (ix2 (0 : Fin 1) q)) Cert.Spec.nN
          - Ideal.div (s (ix2 (0 : Fin 1) q)) Cert.Spec.nN * Ideal.div (s (ix2 (0 : Fin 1) q)) Cert.Spec.nN
          + Cert.Spec.eps) := by
  unfold kInvRow
  rw [kRow256_apply]
  show Ideal.rsqrt (kMean ss (ix1 q) - kMean s (ix1 q) * kMean s (ix1 q) + Cert.Spec.eps) = _
  rw [kMean_apply, kMean_apply]

end Cert.KernelIdeal.HandHost

end
-- ==== Proof.KI_Blk.lean ====
import proofs.«119049_j60301340836383_1_alg».proof.Proof.Spec
import proofs.«119049_j60301340836383_1_alg».proof.KernelIdeal

noncomputable section

namespace Cert.KernelIdeal.HandVal

open Cert.KernelIdeal Idealize.ShloMosaic Idealize.ShloMosaic.ValueIdx

/-- Row `p`, column `q` of one 2000-row block's activations, the biases as 1 × 128 rows. -/
def pblk (x0 x1 : S2000x128.Idx → EReal) (x2 x3 : S128x128.Idx → EReal) (x4 x5 : S1x128.Idx → EReal) (p : Fin 2000) (q : Fin 256) : EReal :=
  if h : q.val < 128 then max (∑ k : Fin 128, x0 (ix2 p k) * x2 (ix2 k ⟨q.val, h⟩)) 0 + x4 (ix2 0 ⟨q.val, h⟩)
  else max (∑ k : Fin 128, x1 (ix2 p k) * x3 (ix2 k ⟨q.val - 128, by omega⟩)) 0 + x5 (ix2 0 ⟨q.val - 128, by omega⟩)

/-- A 1 × 128 bias row as a 128-vector. -/
def rowvec (b : S1x128.Idx → EReal) : Cert.Spec.SB.Idx → EReal := fun j => b (ix2 0 (j 0))

variable (x0 x1 : S100000x128.Idx → EReal) (w0 w1 : S128x128.Idx → EReal) (b0r b1r : S1x128.Idx → EReal)

/-- Row `r`, column `q` of the whole array of activations. -/
def prow (r : Fin 100000) (q : Fin 256) : EReal := Cert.Spec.P x0 x1 w0 w1 (rowvec b0r) (rowvec b1r) r q

/-- The activations, their column sums and their column sums of squares as 1 × 256 rows. -/
def G6 : S100000x256.Idx → EReal := fun i => prow x0 x1 w0 w1 b0r b1r (i 0) (i 1)
def S7 : S1x256.Idx → EReal := fun i => ∑ r : Fin 100000, prow x0 x1 w0 w1 b0r b1r r (i 1)
def S8 : S1x256.Idx → EReal :=
  fun i => ∑ r : Fin 100000, prow x0 x1 w0 w1 b0r b1r r (i 1) * prow x0 x1 w0 w1 b0r b1r r (i 1)

end Cert.KernelIdeal.HandVal

end
-- ==== Proof.KI_Val0Math.lean ====
import proofs.«119049_j60301340836383_1_alg».proof.Proof.KI_Blk
import proofs.«119049_j60301340836383_1_alg».proof.Proof.KI_R0Runs
import Idealize.ShloMosaic.Lib.Pipeline.Value
import Idealize.ShloMosaic.Lib.ValueIdx

noncomputable section

namespace Cert.KernelIdeal.HandVal

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)
open scoped BigOperators

-- a function on the 100000 rows extended by zero to all naturals
def ext0 (f : Fin 100000 → EReal) (k : ℕ) : EReal := if h : k < 100000 then f ⟨k, h⟩ else 0

theorem ext0_val (f : Fin 100000 → EReal) (r : Fin 100000) : ext0 f r.val = f r := dif_pos r.isLt

theorem sum_upto_eq_range (f : Fin 100000 → EReal) (m : ℕ) (hm : m ≤ 100000) :
    (∑ r ∈ Finset.univ.filter (fun r : Fin 100000 => r.val < m), f r) = ∑ k ∈ Finset.range m, ext0 f k := by
  rw [Finset.sum_filter, Finset.sum_congr rfl (fun r _ => show (if r.val < m then f r else 0)
      = (fun k : ℕ => if k < m then ext0 f k else 0) r.val by simp only [ext0_val]),
    Fin.sum_univ_eq_sum_range (fun k : ℕ => if k < m then ext0 f k else 0) 100000, ← Finset.sum_filter]
  refine Finset.sum_congr ?_ (fun _ _ => rfl)
  ext k
  rw [Finset.mem_filter, Finset.mem_range, Finset.mem_range]
  omega

theorem sum_upto_succ (f : Fin 100000 → EReal) (n : ℕ) (hn : n < 50) :
    (∑ r ∈ Finset.univ.filter (fun r : Fin 100000 => r.val < 2000 * (n + 1)), f r)
      = (∑ r ∈ Finset.univ.filter (fun r : Fin 100000 => r.val < 2000 * n), f r)
        + ∑ p : Fin 2000, f ⟨2000 * n + p.val, by have := p.isLt; omega⟩ := by
  rw [sum_upto_eq_range f (2000 * (n + 1)) (by omega), sum_upto_eq_range f (2000 * n) (by omega),
    show 2000 * (n + 1) = 2000 * n + 2000 by omega, Finset.sum_range_add,
    ← Fin.sum_univ_eq_sum_range (fun k : ℕ => ext0 f (2000 * n + k)) 2000]
  exact congrArg _ (Finset.sum_congr rfl fun p _ => ext0_val f ⟨2000 * n + p.val, by have := p.isLt; omega⟩)

theorem sum_upto_all (f : Fin 100000 → EReal) :
    (∑ r ∈ Finset.univ.filter (fun r : Fin 100000 => r.val < 2000 * 50), f r) = ∑ r, f r := by
  rw [Finset.filter_true_of_mem (fun r _ => by have := r.isLt; omega)]

theorem sum_upto_zero (f : Fin 100000 → EReal) :
    (∑ r ∈ Finset.univ.filter (fun r : Fin 100000 => r.val < 2000 * 0), f r) = 0 := by
  rw [Finset.filter_false_of_mem (fun r _ => by omega), Finset.sum_empty]

theorem t_lt (t : Fin cfg0.N) : t.val < 50 := Nat.lt_of_lt_of_eq t.isLt N_0

-- row p of the block of grid point t, as a row of the whole array
def rowAt (t : Fin cfg0.N) (p : Fin 2000) : Fin 100000 := ⟨2000 * t.val + p.val, by have := t_lt t; have := p.isLt; omega⟩

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = t.val ∧ win0_6.index t (1 : Fin 2) = 0 :=
  (by decide +kernel : ∀ t : Fin grid0.N, _)
theorem idx0_7 : ∀ t : Fin cfg0.N, win0_7.index t (0 : Fin 2) = 0 ∧ win0_7.index t (1 : Fin 2) = 0 :=
  (by decide +kernel : ∀ t : Fin grid0.N, _)
theorem idx0_8 : ∀ t : Fin cfg0.N, win0_8.index t (0 : Fin 2) = 0 ∧ win0_8.index t (1 : Fin 2) = 0 :=
  (by decide +kernel : ∀ t : Fin grid0.N, _)

theorem idx_onto0_6 : ∀ (q0 : Fin 50) (q1 : Fin 1), ∃ t : Fin cfg0.N, win0_6.index t = ![q0.val + 0, q1.val + 0] :=
  (by decide +kernel : ∀ (q0 : Fin 50) (q1 : Fin 1), ∃ t : Fin grid0.N, win0_6.index t = ![q0.val + 0, q1.val + 0])

variable (V : (c : Dev nD) → (b : Ref sig .tc) → Buf (Elt Ideal) ((c : Thread nD τ).loc b))

theorem iblk0_0_apply (c : Dev nD) (t : Fin cfg0.N) (p : Fin 2000) (k : Fin 128) :
    (iblk0 (F := Ideal) V c 0 t (ix2 (n0 := 2000) (n1 := 128) p k) : EReal) = (V c main_arg0 : S100000x128.Idx → EReal) (ix2 (rowAt t p) k) := by
  obtain ⟨e0, e1⟩ := idx0_0 t
  exact congrArg (V c main_arg0) (Shape.idx_ext₂
    (by show win0_0.index t (0 : Fin 2) * 2000 + 1 * p.val = 2000 * t.val + p.val; rw [e0]; omega)
    (by show win0_0.index t (1 : Fin 2) * 128 + 1 * k.val = k.val; rw [e1]; omega))

theorem iblk0_1_apply (c : Dev nD) (t : Fin cfg0.N) (p : Fin 2000) (k : Fin 128) :
    (iblk0 (F := Ideal) V c 1 t (ix2 (n0 := 2000) (n1 := 128) p k) : EReal) = (V c main_v12 : S100000x128.Idx → EReal) (ix2 (rowAt t p) k) := by
  obtain ⟨e0, e1⟩ := idx0_1 t
  exact congrArg (V c main_v12) (Shape.idx_ext₂
    (by show win0_1.index t (0 : Fin 2) * 2000 + 1 * p.val = 2000 * t.val + p.val; rw [e0]; omega)
    (by show win0_1.index t (1 : Fin 2) * 128 + 1 * k.val = k.val; rw [e1]; omega))

theorem iblk0_2_apply (c : Dev nD) (t : Fin cfg0.N) (y : S128x128.Idx) :
    (iblk0 (F := Ideal) V c 2 t y : EReal) = (V c main_arg2 : S128x128.Idx → EReal) y := by
  obtain ⟨e0, e1⟩ := idx0_2 t
  exact congrArg (V c main_arg2) (Shape.idx_ext₂
    (by show win0_2.index t (0 : Fin 2) * 128 + 1 * (y 0).val = (y 0).val; rw [e0]; omega)
    (by show win0_2.index t (1 : Fin 2) * 128 + 1 * (y 1).val = (y 1).val; rw [e1]; omega))

theorem iblk0_3_apply (c : Dev nD) (t : Fin cfg0.N) (y : S128x128.Idx) :
    (iblk0 (F := Ideal) V c 3 t y : EReal) = (V c main_arg3 : S128x128.Idx → EReal) y := by
  obtain ⟨e0, e1⟩ := idx0_3 t
  exact congrArg (V c main_arg3) (Shape.idx_ext₂
    (by show win0_3.index t (0 : Fin 2) * 128 + 1 * (y 0).val = (y 0).val; rw [e0]; omega)
    (by show win0_3.index t (1 : Fin 2) * 128 + 1 * (y 1).val = (y 1).val; rw [e1]; omega))

theorem iblk0_4_apply (c : Dev nD) (t : Fin cfg0.N) (y : S1x128.Idx) :
    (iblk0 (F := Ideal) V c 4 t y : EReal) = (V c main_v13 : S1x128.Idx → EReal) y := by
  obtain ⟨e0, e1⟩ := idx0_4 t
  exact congrArg (V c main_v13) (Shape.idx_ext₂
    (by show win0_4.index t (0 : Fin 2) * 1 + 1 * (y 0).val = (y 0).val; rw [e0]; omega)
    (by show win0_4.index t (1 : Fin 2) * 128 + 1 * (y 1).val = (y 1).val; rw [e1]; omega))

theorem iblk0_5_apply (c : Dev nD) (t : Fin cfg0.N) (y : S1x128.Idx) :
    (iblk0 (F := Ideal) V c 5 t y : EReal) = (V c main_v14 : S1x128.Idx → EReal) y := by
  obtain ⟨e0, e1⟩ := idx0_5 t
  exact congrArg (V c main_v14) (Shape.idx_ext₂
    (by show win0_5.index t (0 : Fin 2) * 1 + 1 * (y 0).val = (y 0).val; rw [e0]; omega)
    (by show win0_5.index t (1 : Fin 2) * 128 + 1 * (y 1).val = (y 1).val; rw [e1]; omega))

theorem act_congr {s s' : Fin 128 → EReal} {b b' : EReal} (hs : ∀ k, s k = s' k) (hb : b = b') :
    max (∑ k, s k) 0 + b = max (∑ k, s' k) 0 + b' := by
  rw [Finset.sum_congr rfl (fun k _ => hs k), hb]

-- row p of the block at grid point t is row 2000 t + p of the whole arrays
theorem pblk_iblk (c : Dev nD) (t : Fin cfg0.N) (p : Fin 2000) (q : Fin 256) :
    pblk (iblk0 (F := Ideal) V c 0 t) (iblk0 V c 1 t) (iblk0 V c 2 t) (iblk0 V c 3 t) (iblk0 V c 4 t) (iblk0 V c 5 t) p q
      = prow (V c main_arg0) (V c main_v12) (V c main_arg2) (V c main_arg3) (V c main_v13) (V c main_v14) (rowAt t p) q := by
  unfold pblk prow Cert.Spec.P Cert.Spec.act rowvec
  by_cases h : q.val < 128
  · rw [dif_pos h, dif_pos h]
    exact act_congr (fun k => congrArg₂ (· * ·) (iblk0_0_apply V c t p k) (iblk0_2_apply V c t _)) (iblk0_4_apply V c t _)
  · rw [dif_neg h, dif_neg h]
    exact act_congr (fun k => congrArg₂ (· * ·) (iblk0_1_apply V c t p k) (iblk0_3_apply V c t _)) (iblk0_5_apply V c t _)

end Cert.KernelIdeal.HandVal

end
-- ==== Proof.KI_Val0Pieces.lean ====
import proofs.«119049_j60301340836383_1_alg».proof.Proof.KI_R0Frame
import proofs.«119049_j60301340836383_1_alg».proof.Proof.KI_Val0Math
import Idealize.ShloMosaic.Lib.Pipeline.Value
import Idealize.ShloMosaic.Lib.ValueIdx
import Idealize.ShloMosaic.Lib.ValueLayout
import Idealize.ShloMosaic.Lib.WritesUnit
import Idealize.ShloMosaic.PureOps.Ideal.Laws

noncomputable section

namespace Cert.KernelIdeal.HandVal

open Cert.KernelIdeal Cert.KernelIdeal.Gen Cert.KernelIdeal.Hand Idealize.ShloMosaic Idealize.ShloMosaic.ValueIdx
open Idealize.ShloMosaic.TcCoe Idealize.SL.Sem Idealize.ShloMosaic.Tactic

theorem dot0_idx (j : S2000x128.Idx) (k : dot_S2000x128_S128x128_S2000x128_1_0_0_1_n_n.contr.Idx) :
    (dot_S2000x128_S128x128_S2000x128_1_0_0_1_n_n.lhsIdx j k (0 : Fin 2)).val = (j (0 : Fin 2)).val
      ∧ (dot_S2000x128_S128x128_S2000x128_1_0_0_1_n_n.rhsIdx j k (1 : Fin 2)).val = (j (1 : Fin 2)).val := by
  constructor <;> (simp [DotDims.lhsIdx, DotDims.rhsIdx, dot_S2000x128_S128x128_S2000x128_1_0_0_1_n_n]; rfl)

-- the product into a zero accumulator at (p, q) is the sum over k of A (p, k) * B (k, q)
theorem matmul0_apply (A : FVec Ideal S2000x128 .bf16) (B : FVec Ideal S128x128 .bf16) (p : Fin 2000) (q : Fin 128) :
    matmul dot_S2000x128_S128x128_S2000x128_1_0_0_1_n_n none A B (constant S2000x128 .f32 0x00000000#32) (ix2 p q)
      = ∑ k : Fin 128, A (ix2 p k) * B (ix2 k q) := by
  refine (Ideal.matmul_constant_zero_apply _ none A B (ix2 p q)).trans ?_
  rw [← Equiv.sum_comp (contrEquiv1 dot_S2000x128_S128x128_S2000x128_1_0_0_1_n_n 128 rfl rfl).symm]
  refine Finset.sum_congr rfl fun c _ => ?_
  have hc := contrEquiv1_symm_val dot_S2000x128_S128x128_S2000x128_1_0_0_1_n_n 128 rfl rfl c
  exact congrArg₂ (· * ·)
    (congrArg A (Shape.idx_ext₂ (dot0_idx _ _).1 ((DotDims.lhsIdx_val_of_single _ rfl _ _).trans hc)))
    (congrArg B (Shape.idx_ext₂ ((DotDims.rhsIdx_val_of_single _ rfl _ _).trans hc) (dot0_idx _ _).2))

theorem pay7_apply (x : Vec Ideal S2000x128 .f32) (w : Vec Ideal S128x128 .f32) (b : Vec Ideal S1x128 .f32) (p : Fin 2000) (q : Fin 128) :
    k0_pay7 x w b (ix2 p q) = max (∑ k : Fin 128, x (ix2 p k) * w (ix2 k q)) 0 + b (ix2 0 q) := by
  unfold k0_pay7
  simp only [shapeCast_self]
  exact congrArg₂ (· + ·) (congrArg₂ max (matmul0_apply _ _ p q) Ideal.ofBits_zero_f32) (broadcastTo_1b_ab_apply _ _ p q)

theorem pay8_eq (x : Vec Ideal S2000x128 .f32) (w : Vec Ideal S128x128 .f32) (b : Vec Ideal S1x128 .f32) : k0_pay8 x w b = k0_pay7 x w b := by
  unfold k0_pay8 k0_pay7
  simp only [shapeCast_self]

-- old row plus the column sums of v
theorem pay2_apply (v : FVec Ideal S2000x128 .f32) (a : Vec Ideal S1x128 .f32) (u : Fin 1) (q : Fin 128) :
    k0_pay2 v a (ix2 u q) = a (ix2 u q) + ∑ p : Fin 2000, v (ix2 p q) := by
  unfold k0_pay2
  simp only [shapeCast_self]
  refine congrArg (a (ix2 u q) + ·) ((shapeCast_a_1a_apply _ _ u q).trans ?_)
  refine (Ideal.multiReduction_add_single v _ reduces_S2000x128_S128 (.inl rfl) rfl (ix1 q)).trans ?_
  exact Finset.sum_congr rfl fun p _ => congrArg v (Shape.idx_ext₂ rfl rfl)

theorem pay5_apply (j : S1x256.Idx) : k0_pay5 (F := Ideal) j = 0 := by
  unfold k0_pay5
  simp only [shapeCast_self]
  exact Ideal.ofBits_zero_f32

theorem zero2 : (![0, 0] : Fin 2 → Nat) = fun _ => 0 := funext fun a => by fin_cases a <;> rfl

theorem load_unread {s : Shape} (m : Memref sig .tc .vmem s .f32) (hm : m.IsWhole) (X : Vec Ideal s .f32) (r : Rect s) :
    View.readAt (Elt Ideal) m.view r.toLoadRect (hm.unread X) = View.ld X r := by
  rw [View.readAt_eq_ld, hm.read_unread]

theorem load_whole (b : Ref sig .tc) (hm : (Memref.whole b).IsWhole) (X : b.ty.shape.Idx → Elt Ideal b.ty.elt) (r : Rect b.ty.shape) :
    View.readAt (Elt Ideal) (View.whole b) r.toLoadRect (hm.unread X) = View.ld X r := by
  rw [View.readAt_eq_ld, hm.read_unread]

-- each column lies in exactly one of the two halves stored last
theorem read_halves {n : ℕ} (v : View sig .tc .vmem ⟨2, ![n, 256]⟩ .f32) (f : v.ty.Contents (Elt Ideal))
    (inb1 : ∀ a, (![0, 128] : Fin 2 → Nat) a + (![n, 128] : Fin 2 → Nat) a ≤ (⟨2, ![n, 256]⟩ : Shape).size a)
    (inb0 : ∀ a, (![0, 0] : Fin 2 → Nat) a + (![n, 128] : Fin 2 → Nat) a ≤ (⟨2, ![n, 256]⟩ : Shape).size a)
    (w1 w0 : (⟨2, ![n, 128]⟩ : Shape).Idx → EReal) (L : List (View.Piece (Elt Ideal) ⟨2, ![n, 256]⟩ .f32))
    (y : (⟨2, ![n, 256]⟩ : Shape).Idx) (R : EReal)
    (h0 : ∀ h : (y 1).val < 128, w0 (ix2 (y 0) ⟨(y 1).val, h⟩) = R)
    (h1 : ∀ h : ¬(y 1).val < 128, w1 (ix2 (y 0) ⟨(y 1).val - 128, by have := idx2_lt1 y; omega⟩) = R) :
    v.read (Elt Ideal) (v.writes (Elt Ideal) f (⟨Rect.unit ![0, 128] ![n, 128] inb1, w1⟩ :: ⟨Rect.unit ![0, 0] ![n, 128] inb0, w0⟩ :: L)) y = R := by
  have hy := idx2_lt1 y
  by_cases h : (y 1).val < 128
  · refine (View.read_writes_cons_unit_of_not_mem v f inb1 w1 _ y rfl (1 : Fin 2) (Or.inl (show (y 1).val < 128 from h))).trans ?_
    exact (View.read_writes_cons_unit_of_mem v f inb0 w0 L y (ix2 (y 0) ⟨(y 1).val, h⟩) rfl
      (Fin.forall_fin_two.mpr ⟨by show (y 0).val = 0 + (y 0).val; omega, by show (y 1).val = 0 + (y 1).val; omega⟩)).trans (h0 h)
  · exact (View.read_writes_cons_unit_of_mem v f inb1 w1 _ y (ix2 (y 0) ⟨(y 1).val - 128, by omega⟩) rfl
      (Fin.forall_fin_two.mpr ⟨by show (y 0).val = 0 + (y 0).val; omega, by show (y 1).val = 128 + ((y 1).val - 128); omega⟩)).trans (h1 h)

theorem ld_row_lo (X : Vec Ideal S1x256 .f32) (inb0 : ∀ a, (![0, 0] : Fin 2 → Nat) a + (![1, 128] : Fin 2 → Nat) a ≤ S1x256.size a)
    (y : S1x256.Idx) (h : (y 1).val < 128) : View.ld X (Rect.unit ![0, 0] ![1, 128] inb0) (ix2 (y 0) ⟨(y 1).val, h⟩) = X y :=
  congrArg X (Shape.idx_ext₂ (by show 0 + 1 * (y 0).val = (y 0).val; omega) (by show 0 + 1 * (y 1).val = (y 1).val; omega))

theorem ld_row_hi (X : Vec Ideal S1x256 .f32) (inb1 : ∀ a, (![0, 128] : Fin 2 → Nat) a + (![1, 128] : Fin 2 → Nat) a ≤ S1x256.size a)
    (y : S1x256.Idx) (h : ¬(y 1).val < 128) :
    View.ld X (Rect.unit ![0, 128] ![1, 128] inb1) (ix2 (y 0) ⟨(y 1).val - 128, by have := idx2_lt1 y; omega⟩) = X y :=
  congrArg X (Shape.idx_ext₂ (by show 0 + 1 * (y 0).val = (y 0).val; omega) (by show 128 + 1 * ((y 1).val - 128) = (y 1).val; omega))

section Row
variable (v : View sig .tc .vmem S1x256 .f32) (inbw : ∀ a, (![0, 0] : Fin 2 → Nat) a + (![1, 256] : Fin 2 → Nat) a ≤ S1x256.size a)
  (inb1 : ∀ a, (![0, 128] : Fin 2 → Nat) a + (![1, 128] : Fin 2 → Nat) a ≤ S1x256.size a)
  (inb0 : ∀ a, (![0, 0] : Fin 2 → Nat) a + (![1, 128] : Fin 2 → Nat) a ≤ S1x256.size a)

-- each half adds the block's column sums to what that half held
theorem acc_gen (f : v.ty.Contents (Elt Ideal))
    (V1 V0 : FVec Ideal S2000x128 .f32) (ahi alo : Vec Ideal S1x128 .f32) (A : S1x256.Idx → EReal) (G : Fin 2000 → Fin 256 → EReal)
    (hV0 : ∀ p (q : Fin 256) (h : q.val < 128), V0 (ix2 p ⟨q.val, h⟩) = G p q)
    (hV1 : ∀ p (q : Fin 256) (h : ¬q.val < 128), V1 (ix2 p ⟨q.val - 128, by omega⟩) = G p q)
    (hlo : ∀ (y : S1x256.Idx) (h : (y 1).val < 128), alo (ix2 (y 0) ⟨(y 1).val, h⟩) = A y)
    (hhi : ∀ (y : S1x256.Idx) (h : ¬(y 1).val < 128), ahi (ix2 (y 0) ⟨(y 1).val - 128, by have := idx2_lt1 y; omega⟩) = A y)
    (L : List (View.Piece (Elt Ideal) S1x256 .f32)) (y : S1x256.Idx) :
    v.read (Elt Ideal) (v.writes (Elt Ideal) f (⟨Rect.unit ![0, 128] ![1, 128] inb1, k0_pay2 V1 ahi⟩ :: ⟨Rect.unit ![0, 0] ![1, 128] inb0, k0_pay2 V0 alo⟩ :: L)) y
      = A y + ∑ p, G p (y 1) :=
  read_halves v f inb1 inb0 _ _ L y _
    (fun h => (pay2_apply _ _ _ _).trans (congrArg₂ (· + ·) (hlo y h) (Finset.sum_congr rfl fun p _ => hV0 p _ h)))
    (fun h => (pay2_apply _ _ _ _).trans (congrArg₂ (· + ·) (hhi y h) (Finset.sum_congr rfl fun p _ => hV1 p _ h)))

theorem read_row_whole (f : v.ty.Contents (Elt Ideal)) (w : S1x256.Idx → EReal) (L : List (View.Piece (Elt Ideal) S1x256 .f32)) (y : S1x256.Idx) :
    v.read (Elt Ideal) (v.writes (Elt Ideal) f (⟨Rect.unit ![0, 0] ![1, 256] inbw, w⟩ :: L)) y = w y :=
  View.read_writes_cons_unit_of_mem v f inbw w L y y rfl
    (Fin.forall_fin_two.mpr ⟨by show (y 0).val = 0 + (y 0).val; omega, by show (y 1).val = 0 + (y 1).val; omega⟩)

-- the clearing row is zero everywhere
theorem readCov_cleared (B : LoadRect S1x256) (j : B.shape.Idx) :
    v.readCov [(⟨Rect.unit ![0, 0] ![1, 256] inbw, k0_pay5 (F := Ideal)⟩ : View.Piece (Elt Ideal) S1x256 .f32)] B j = 0 :=
  (read_row_whole v inbw v.junk _ [] (B.idx j)).trans (pay5_apply _)

-- the left-half store does not reach a column of the right half
theorem readCov_cleared_hi (w0 : S1x128.Idx → EReal) (B : LoadRect S1x256) (j : B.shape.Idx) (hB : 128 ≤ (B.idx j (1 : Fin 2)).val) :
    v.readCov [(⟨Rect.unit ![0, 0] ![1, 128] inb0, w0⟩ : View.Piece (Elt Ideal) S1x256 .f32), ⟨Rect.unit ![0, 0] ![1, 256] inbw, k0_pay5 (F := Ideal)⟩] B j = 0 :=
  (View.read_writes_cons_unit_of_not_mem (Val := Elt Ideal) v v.junk inb0 w0 _ _ rfl (1 : Fin 2)
    (Or.inr (show 0 + 128 ≤ (B.idx j (1 : Fin 2)).val by omega))).trans (readCov_cleared v inbw B j)

theorem readCov_whole (L : List (View.Piece (Elt Ideal) S1x256 .f32)) (y : (Rect.unit (s := S1x256) ![0, 0] ![1, 256] inbw).shape.Idx) :
    v.readCov L (Rect.unit (s := S1x256) ![0, 0] ![1, 256] inbw).toLoadRect y = v.read (Elt Ideal) (v.writes (Elt Ideal) v.junk L) y :=
  congrArg (v.read (Elt Ideal) (v.writes (Elt Ideal) v.junk L))
    (Shape.idx_ext₂ (by show 0 + 1 * (y 0).val = (y 0).val; omega) (by show 0 + 1 * (y 1).val = (y 1).val; omega))

end Row

variable (V : (c : Dev nD) → (b : Ref sig .tc) → Buf (Elt Ideal) ((c : Thread nD τ).loc b))

abbrev pr (c : Dev nD) : Fin 100000 → Fin 256 → EReal := prow (V c main_arg0) (V c main_v12) (V c main_arg2) (V c main_arg3) (V c main_v13) (V c main_v14)
abbrev prsq (c : Dev nD) : Fin 100000 → Fin 256 → EReal := fun r q => pr V c r q * pr V c r q

-- the two halves of the block the body stores at point t are rows 2000 t ... of the whole array's activations
theorem blk7 (c : Dev nD) (t : Fin cfg0.N) (p : Fin 2000) (q : Fin 256) (h : q.val < 128) :
    k0_pay7 (iblk0 (F := Ideal) V c 0 t) (iblk0 V c 2 t) (iblk0 V c 4 t) (ix2 p ⟨q.val, h⟩) = pr V c (rowAt t p) q := by
  refine (pay7_apply _ _ _ p _).trans ((pblk_iblk V c t p q).symm.trans ?_).symm
  unfold pblk; rw [dif_pos h]

theorem blk8 (c : Dev nD) (t : Fin cfg0.N) (p : Fin 2000) (q : Fin 256) (h : ¬q.val < 128) :
    k0_pay8 (iblk0 (F := Ideal) V c 1 t) (iblk0 V c 3 t) (iblk0 V c 5 t) (ix2 p ⟨q.val - 128, by omega⟩) = pr V c (rowAt t p) q := by
  rw [pay8_eq]
  refine (pay7_apply _ _ _ p _).trans ((pblk_iblk V c t p q).symm.trans ?_).symm
  unfold pblk; rw [dif_neg h]

theorem sq_of {W : FVec Ideal S2000x128 .f32} {j : S2000x128.Idx} {a : EReal} (h : W j = a) : mulf W W j = a * a := congrArg₂ (· * ·) h h

theorem atA0_eq (c : Dev nD) (t : Fin cfg0.N) (hc0 : cond0_0 (grid0.coords t)) (hc1 : ¬cond0_1 (grid0.coords t)) :
    (atA0 (F := Ideal) V c t hc0 hc1).1 = (fun y => pr V c (rowAt t (y 0)) (y 1))
      ∧ (atA0 (F := Ideal) V c t hc0 hc1).2.2.2.1 = (fun y => 0 + ∑ p, pr V c (rowAt t p) (y 1))
      ∧ (atA0 (F := Ideal) V c t hc0 hc1).2.2.2.2 = (fun y => 0 + ∑ p, prsq V c (rowAt t p) (y 1)) := by
  dsimp only [atA0]
  unfold kernelRun0_A
  dsimp only
  sl_unfold_words
  simp only [load_unread, load_whole, View.ld_unit_zero (S := S2000x128) zero2, View.ld_unit_zero (S := S128x128) zero2, View.ld_unit_zero (S := S1x128) zero2]
  exact ⟨funext fun y => read_halves _ _ _ _ _ _ [] y _ (blk7 V c t _ _) (blk8 V c t _ _),
    funext fun y => acc_gen _ _ _ _ _ _ _ _ (fun _ => 0) _ (blk7 V c t) (blk8 V c t)
      (fun y h => readCov_cleared _ _ _ _) (fun y h => readCov_cleared_hi _ _ _ _ _ _ (Nat.le_add_right 128 _)) _ y,
    funext fun y => acc_gen _ _ _ _ _ _ _ _ (fun _ => 0) _ (fun p q h => sq_of (blk7 V c t p q h)) (fun p q h => sq_of (blk8 V c t p q h))
      (fun y h => readCov_cleared _ _ _ _) (fun y h => readCov_cleared_hi _ _ _ _ _ _ (Nat.le_add_right 128 _)) _ y⟩

theorem atB0_eq (c : Dev nD) (t : Fin cfg0.N) (hc0 : ¬cond0_0 (grid0.coords t)) (hc1 : ¬cond0_1 (grid0.coords t)) (xs0 xs1 : Vec Ideal S1x256 .f32) :
    (atB0 (F := Ideal) V c t hc0 hc1 xs0 xs1).1 = (fun y => pr V c (rowAt t (y 0)) (y 1))
      ∧ (atB0 (F := Ideal) V c t hc0 hc1 xs0 xs1).2.2.2.1 = (fun y => xs0 y + ∑ p, pr V c (rowAt t p) (y 1))
      ∧ (atB0 (F := Ideal) V c t hc0 hc1 xs0 xs1).2.2.2.2 = (fun y => xs1 y + ∑ p, prsq V c (rowAt t p) (y 1)) := by
  dsimp only [atB0]
  unfold kernelRun0_B
  dsimp only
  sl_unfold_words
  simp only [load_unread, load_whole, View.ld_unit_zero (S := S2000x128) zero2, View.ld_unit_zero (S := S128x128) zero2, View.ld_unit_zero (S := S1x128) zero2]
  exact ⟨funext fun y => read_halves _ _ _ _ _ _ [] y _ (blk7 V c t _ _) (blk8 V c t _ _),
    funext fun y => acc_gen _ _ _ _ _ _ _ _ xs0 _ (blk7 V c t) (blk8 V c t) (ld_row_lo xs0 _) (ld_row_hi xs0 _) [] y,
    funext fun y => acc_gen _ _ _ _ _ _ _ _ xs1 _ (fun p q h => sq_of (blk7 V c t p q h)) (fun p q h => sq_of (blk8 V c t p q h))
      (ld_row_lo xs1 _) (ld_row_hi xs1 _) [] y⟩

-- at the last point the two results are copies of the two accumulators
theorem atC0_eq (c : Dev nD) (t : Fin cfg0.N) (hc0 : ¬cond0_0 (grid0.coords t)) (hc1 : cond0_1 (grid0.coords t)) (xs0 xs1 : Vec Ideal S1x256 .f32) :
    (atC0 (F := Ideal) V c t hc0 hc1 xs0 xs1).1 = (fun y => pr V c (rowAt t (y 0)) (y 1))
      ∧ (atC0 (F := Ideal) V c t hc0 hc1 xs0 xs1).2.1 = (atC0 (F := Ideal) V c t hc0 hc1 xs0 xs1).2.2.2.1
      ∧ (atC0 (F := Ideal) V c t hc0 hc1 xs0 xs1).2.2.1 = (atC0 (F := Ideal) V c t hc0 hc1 xs0 xs1).2.2.2.2
      ∧ (atC0 (F := Ideal) V c t hc0 hc1 xs0 xs1).2.2.2.1 = (fun y => xs0 y + ∑ p, pr V c (rowAt t p) (y 1))
      ∧ (atC0 (F := Ideal) V c t hc0 hc1 xs0 xs1).2.2.2.2 = (fun y => xs1 y + ∑ p, prsq V c (rowAt t p) (y 1)) := by
  dsimp only [atC0]
  unfold kernelRun0_C
  dsimp only
  sl_unfold_words
  simp only [load_unread, load_whole, View.ld_unit_zero (S := S2000x128) zero2, View.ld_unit_zero (S := S128x128) zero2, View.ld_unit_zero (S := S1x128) zero2]
  exact ⟨funext fun y => read_halves _ _ _ _ _ _ [] y _ (blk7 V c t _ _) (blk8 V c t _ _),
    funext fun y => (read_row_whole _ _ _ _ [] y).trans (readCov_whole _ _ _ y),
    funext fun y => (read_row_whole _ _ _ _ [] y).trans (readCov_whole _ _ _ y),
    funext fun y => acc_gen _ _ _ _ _ _ _ _ xs0 _ (blk7 V c t) (blk8 V c t) (ld_row_lo xs0 _) (ld_row_hi xs0 _) [] y,
    funext fun y => acc_gen _ _ _ _ _ _ _ _ xs1 _ (fun p q h => sq_of (blk7 V c t p q h)) (fun p q h => sq_of (blk8 V c t p q h))
      (ld_row_lo xs1 _) (ld_row_hi xs1 _) [] y⟩

end Cert.KernelIdeal.HandVal

end
-- ==== Proof.KI_Val0.lean ====
import proofs.«119049_j60301340836383_1_alg».proof.Proof.KI_Val0Pieces

noncomputable section

namespace Cert.KernelIdeal.HandVal

open Cert.KernelIdeal Cert.KernelIdeal.Gen Cert.KernelIdeal.Hand Idealize.ShloMosaic Idealize.ShloMosaic.TcCoe Idealize.ShloMosaic.ValueIdx Idealize.SL.Sem

-- column y 1's sum of f over the rows below m
def accUpto (f : Fin 100000 → Fin 256 → EReal) (m : ℕ) : S1x256.Idx → EReal :=
  fun y => ∑ r ∈ Finset.univ.filter (fun r : Fin 100000 => r.val < m), f r (y 1)

theorem accUpto_succ (f : Fin 100000 → Fin 256 → EReal) (t : Fin cfg0.N) :
    (fun y : S1x256.Idx => accUpto f (2000 * t.val) y + ∑ p : Fin 2000, f (rowAt t p) (y 1)) = accUpto f (2000 * (t.val + 1)) :=
  funext fun y => (sum_upto_succ (fun r => f r (y 1)) t.val (t_lt t)).symm

theorem accUpto_first (f : Fin 100000 → Fin 256 → EReal) (t : Fin cfg0.N) (h0 : t.val = 0) :
    (fun y : S1x256.Idx => 0 + ∑ p : Fin 2000, f (rowAt t p) (y 1)) = accUpto f (2000 * (t.val + 1)) := by
  rw [← accUpto_succ f t]
  funext y
  show _ = accUpto f (2000 * t.val) y + _
  unfold accUpto
  rw [h0, sum_upto_zero]

variable (V : (c : Dev nD) → (b : Ref sig .tc) → Buf (Elt Ideal) ((c : Thread nD τ).loc b))

def tLast : Fin cfg0.N := ⟨49, by rw [show cfg0.N = 50 from N_0]; omega⟩

-- after point n the accumulators hold the column sums, and sums of squares, over the rows below 2000 (n + 1)
theorem accInv (c : Dev nD) : ∀ (n : ℕ) (hn : n < cfg0.N),
    (outsAt0 (F := Ideal) V c n hn).2.2.2.1 = accUpto (pr V c) (2000 * (n + 1))
      ∧ (outsAt0 (F := Ideal) V c n hn).2.2.2.2 = accUpto (prsq V c) (2000 * (n + 1))
  | 0, hn => ⟨(atA0_eq V c ⟨0, hn⟩ _ _).2.1.trans (accUpto_first (pr V c) ⟨0, hn⟩ rfl),
      (atA0_eq V c ⟨0, hn⟩ _ _).2.2.trans (accUpto_first (prsq V c) ⟨0, hn⟩ rfl)⟩
  | n + 1, hn => by
    obtain ⟨ih0, ih1⟩ := accInv c n (Nat.lt_of_succ_lt hn)
    unfold outsAt0
    split
    · rw [ih0, ih1]
      exact ⟨(atC0_eq V c ⟨n + 1, hn⟩ _ _ _ _).2.2.2.1.trans (accUpto_succ (pr V c) ⟨n + 1, hn⟩),
        (atC0_eq V c ⟨n + 1, hn⟩ _ _ _ _).2.2.2.2.trans (accUpto_succ (prsq V c) ⟨n + 1, hn⟩)⟩
    · rw [ih0, ih1]
      exact ⟨(atB0_eq V c ⟨n + 1, hn⟩ _ _ _ _).2.1.trans (accUpto_succ (pr V c) ⟨n + 1, hn⟩),
        (atB0_eq V c ⟨n + 1, hn⟩ _ _ _ _).2.2.trans (accUpto_succ (prsq V c) ⟨n + 1, hn⟩)⟩

theorem accUpto_all (f : Fin 100000 → Fin 256 → EReal) (m : ℕ) (hm : m = 50) : accUpto f (2000 * m) = fun y => ∑ r, f r (y 1) := by
  subst hm; exact funext fun y => sum_upto_all _

-- at the last point the two results hold the column sums over all the rows
theorem resInv (c : Dev nD) (n : ℕ) (hn : n + 1 < cfg0.N) (h1 : n + 1 = 49) :
    (outsAt0 (F := Ideal) V c (n + 1) hn).2.1 = (fun y => ∑ r, pr V c r (y 1))
      ∧ (outsAt0 (F := Ideal) V c (n + 1) hn).2.2.1 = (fun y => ∑ r, prsq V c r (y 1)) := by
  obtain ⟨ih0, ih1⟩ := accInv V c n (Nat.lt_of_succ_lt hn)
  unfold outsAt0
  rw [dif_pos h1, ih0, ih1]
  exact ⟨(((atC0_eq V c ⟨n + 1, hn⟩ _ _ _ _).2.1.trans (atC0_eq V c ⟨n + 1, hn⟩ _ _ _ _).2.2.2.1).trans
      (accUpto_succ (pr V c) ⟨n + 1, hn⟩)).trans (accUpto_all _ _ (congrArg (· + 1) h1)),
    (((atC0_eq V c ⟨n + 1, hn⟩ _ _ _ _).2.2.1.trans (atC0_eq V c ⟨n + 1, hn⟩ _ _ _ _).2.2.2.2).trans
      (accUpto_succ (prsq V c) ⟨n + 1, hn⟩)).trans (accUpto_all _ _ (congrArg (· + 1) h1))⟩

theorem out6Inv (c : Dev nD) (t : Fin cfg0.N) :
    (outsAt0 (F := Ideal) V c t.val t.isLt).1 = fun y => pr V c (rowAt t (y 0)) (y 1) := by
  by_cases h0 : t.val = 0
  · rw [outsAt0_A V c t h0]; exact (atA0_eq V c t _ _).1
  · by_cases h1 : t.val = 49
    · rw [outsAt0_C V c t h1]; exact (atC0_eq V c t _ _ _ _).1
    · rw [outsAt0_B V c t h0 h1]; exact (atB0_eq V c t _ _ _ _).1

theorem flushed0_6_eq (c : Dev nD) (t : Fin cfg0.N) :
    (dat0 (F := Ideal) V c).flushed 6 t = ((cfg0.win 6).blk t).view.read (Elt Ideal) (G6 (V c main_arg0) (V c main_v12) (V c main_arg2) (V c main_arg3) (V c main_v13) (V c main_v14)) := by
  show (cfg0.win 6).cut (grid0.coords t) ((dat0 V c).after 6 t) = _
  rw [after0_6, out6Inv V c t]
  obtain ⟨e0, e1⟩ := idx0_6 t
  funext j
  exact congrArg₂ (pr V c)
    (Fin.ext (by show 2000 * t.val + (j 0).val = win0_6.index t (0 : Fin 2) * 2000 + 1 * (j 0).val; rw [e0]; omega))
    (Fin.ext (by show (j 1).val = win0_6.index t (1 : Fin 2) * 256 + 1 * (j 1).val; rw [e1]; omega))

theorem covered0_6 (i : S100000x256.Idx) :
    ∃ t : Fin cfg0.N, (cfg0.win 6).flush t = true ∧ i ∈ ((cfg0.win 6).blk t).view.set := by
  have hi0 : (i 0).val < 100000 := idx2_lt0 i
  have hi1 : (i 1).val < 256 := idx2_lt1 i
  obtain ⟨t, ht⟩ := idx_onto0_6 ⟨(i 0).val / 2000, by omega⟩ ⟨(i 1).val / 256, by omega⟩
  have q0 : win0_6.index t (0 : Fin 2) = (i 0).val / 2000 + 0 := congrFun ht 0
  have q1 : win0_6.index t (1 : Fin 2) = (i 1).val / 256 + 0 := congrFun ht 1
  refine ⟨t, flush0_6 t, ?_⟩
  show i ∈ ((View.whole main_v15_0).slice (win0_6.rect t)).set
  rw [View.set_slice_whole, Rect.mem_set_unit]
  exact Fin.forall_fin_two.mpr ⟨by show win0_6.index t (0 : Fin 2) * 2000 ≤ (i 0).val ∧ (i 0).val < win0_6.index t (0 : Fin 2) * 2000 + 2000; omega,
    by show win0_6.index t (1 : Fin 2) * 256 ≤ (i 1).val ∧ (i 1).val < win0_6.index t (1 : Fin 2) * 256 + 256; omega⟩

theorem final0_6 (c : Dev nD) : (dat0 (F := Ideal) V c).arrAt 6 cfg0.N = G6 (V c main_arg0) (V c main_v12) (V c main_arg2) (V c main_arg3) (V c main_v13) (V c main_v14) :=
  (dat0 V c).arrAt_eq_of_cover 6 _ (fun t _ => flushed0_6_eq V c t) covered0_6

theorem row_read0_7 (g : Fin 256 → EReal) (t : Fin cfg0.N) :
    (cfg0.win 7).cut (grid0.coords t) (fun y => g (y 1)) = ((cfg0.win 7).blk t).view.read (Elt Ideal) (fun i => g (i 1)) := by
  obtain ⟨-, e1⟩ := idx0_7 t
  funext j
  refine congrArg g (Fin.ext ?_)
  show (j 1).val = win0_7.index t (1 : Fin 2) * 256 + 1 * (j 1).val
  rw [e1]; omega

theorem flushed0_7_eq (c : Dev nD) (t : Fin cfg0.N) (hf : (cfg0.win 7).flush t = true) :
    (dat0 (F := Ideal) V c).flushed 7 t = ((cfg0.win 7).blk t).view.read (Elt Ideal) (S7 (V c main_arg0) (V c main_v12) (V c main_arg2) (V c main_arg3) (V c main_v13) (V c main_v14)) := by
  obtain rfl : t = tLast := Fin.ext (show t.val = 49 by have := (flush0_7 t).mp hf; have := t_lt t; omega)
  show (cfg0.win 7).cut (grid0.coords tLast) ((dat0 V c).after 7 tLast) = _
  rw [after0_7, show (outsAt0 (F := Ideal) V c tLast.val tLast.isLt).2.1 = _ from (resInv V c 48 tLast.isLt rfl).1]
  exact row_read0_7 (fun q => ∑ r, pr V c r q) tLast

theorem covered0_7 (i : S1x256.Idx) :
    ∃ t : Fin cfg0.N, (cfg0.win 7).flush t = true ∧ i ∈ ((cfg0.win 7).blk t).view.set := by
  have hi0 : (i 0).val < 1 := idx2_lt0 i
  have hi1 : (i 1).val < 256 := idx2_lt1 i
  obtain ⟨e0, e1⟩ := idx0_7 tLast
  refine ⟨tLast, (flush0_7 tLast).mpr rfl, ?_⟩
  show i ∈ ((View.whole main_v15_1).slice (win0_7.rect tLast)).set
  rw [View.set_slice_whole, Rect.mem_set_unit]
  exact Fin.forall_fin_two.mpr ⟨by show win0_7.index tLast (0 : Fin 2) * 1 ≤ (i 0).val ∧ (i 0).val < win0_7.index tLast (0 : Fin 2) * 1 + 1; rw [e0]; omega,
    by show win0_7.index tLast (1 : Fin 2) * 256 ≤ (i 1).val ∧ (i 1).val < win0_7.index tLast (1 : Fin 2) * 256 + 256; rw [e1]; omega⟩

theorem final0_7 (c : Dev nD) : (dat0 (F := Ideal) V c).arrAt 7 cfg0.N = S7 (V c main_arg0) (V c main_v12) (V c main_arg2) (V c main_arg3) (V c main_v13) (V c main_v14) :=
  (dat0 V c).arrAt_eq_of_cover 7 _ (flushed0_7_eq V c) covered0_7

theorem row_read0_8 (g : Fin 256 → EReal) (t : Fin cfg0.N) :
    (cfg0.win 8).cut (grid0.coords t) (fun y => g (y 1)) = ((cfg0.win 8).blk t).view.read (Elt Ideal) (fun i => g (i 1)) := by
  obtain ⟨-, e1⟩ := idx0_8 t
  funext j
  refine congrArg g (Fin.ext ?_)
  show (j 1).val = win0_8.index t (1 : Fin 2) * 256 + 1 * (j 1).val
  rw [e1]; omega

theorem flushed0_8_eq (c : Dev nD) (t : Fin cfg0.N) (hf : (cfg0.win 8).flush t = true) :
    (dat0 (F := Ideal) V c).flushed 8 t = ((cfg0.win 8).blk t).view.read (Elt Ideal) (S8 (V c main_arg0) (V c main_v12) (V c main_arg2) (V c main_arg3) (V c main_v13) (V c main_v14)) := by
  obtain rfl : t = tLast := Fin.ext (show t.val = 49 by have := (flush0_8 t).mp hf; have := t_lt t; omega)
  show (cfg0.win 8).cut (grid0.coords tLast) ((dat0 V c).after 8 tLast) = _
  rw [after0_8, show (outsAt0 (F := Ideal) V c tLast.val tLast.isLt).2.2.1 = _ from (resInv V c 48 tLast.isLt rfl).2]
  exact row_read0_8 (fun q => ∑ r, prsq V c r q) tLast

theorem covered0_8 (i : S1x256.Idx) :
    ∃ t : Fin cfg0.N, (cfg0.win 8).flush t = true ∧ i ∈ ((cfg0.win 8).blk t).view.set := by
  have hi0 : (i 0).val < 1 := idx2_lt0 i
  have hi1 : (i 1).val < 256 := idx2_lt1 i
  obtain ⟨e0, e1⟩ := idx0_8 tLast
  refine ⟨tLast, (flush0_8 tLast).mpr rfl, ?_⟩
  show i ∈ ((View.whole main_v15_2).slice (win0_8.rect tLast)).set
  rw [View.set_slice_whole, Rect.mem_set_unit]
  exact Fin.forall_fin_two.mpr ⟨by show win0_8.index tLast (0 : Fin 2) * 1 ≤ (i 0).val ∧ (i 0).val < win0_8.index tLast (0 : Fin 2) * 1 + 1; rw [e0]; omega,
    by show win0_8.index tLast (1 : Fin 2) * 256 ≤ (i 1).val ∧ (i 1).val < win0_8.index tLast (1 : Fin 2) * 256 + 256; rw [e1]; omega⟩

theorem final0_8 (c : Dev nD) : (dat0 (F := Ideal) V c).arrAt 8 cfg0.N = S8 (V c main_arg0) (V c main_v12) (V c main_arg2) (V c main_arg3) (V c main_v13) (V c main_v14) :=
  (dat0 V c).arrAt_eq_of_cover 8 _ (flushed0_8_eq V c) covered0_8

end Cert.KernelIdeal.HandVal

end
-- ==== Proof.KI_Val1.lean ====
import proofs.«119049_j60301340836383_1_alg».proof.Proof.KI_R1
import Idealize.ShloMosaic.Lib.Pipeline.Value
import Idealize.ShloMosaic.Lib.ValueIdx
import Idealize.ShloMosaic.Lib.ValueLayout

noncomputable section

namespace Cert.KernelIdeal.HandVal

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem out1_5_apply (x0 : Vec Ideal S2000x256 .f32) (x1 x2 x3 x4 : Vec Ideal S1x256 .f32) (p : Fin 2000) (q : Fin 256) :
    out1_5 x0 x1 x2 x3 x4 (ix2 p q)
      = ((x0 (ix2 p q) - x1 (ix2 0 q)) * x2 (ix2 0 q)) * x3 (ix2 0 q) + x4 (ix2 0 q) := by
  unfold out1_5
  rw [View.canon_unit_zero hz]
  simp only [View.ld_unit_zero (S := S2000x256) hz, View.ld_unit_zero (S := S1x256) hz]
  unfold k1_pay1
  simp only [shapeCast_self]
  rw [addf_apply, mulf_apply, mulf_apply, subf_apply]
  simp only [broadcastTo_1b_ab_apply]

theorem out1_5_at (x0 : Vec Ideal S2000x256 .f32) (x1 x2 x3 x4 : Vec Ideal S1x256 .f32) (y : S2000x256.Idx) :
    out1_5 x0 x1 x2 x3 x4 y
      = ((x0 y - x1 (ix2 0 (y 1))) * x2 (ix2 0 (y 1))) * x3 (ix2 0 (y 1)) + x4 (ix2 0 (y 1)) := by
  obtain ⟨p, q, rfl⟩ : ∃ (p : Fin 2000) (q : Fin 256), y = ix2 p q := ⟨y 0, y 1, eq_ix2 y⟩
  exact out1_5_apply x0 x1 x2 x3 x4 p q

def G1 (x : S100000x256.Idx → EReal) (mu iv g b : S1x256.Idx → EReal) : S100000x256.Idx → EReal :=
  fun i => ((x i - mu (ix2 0 (i 1))) * iv (ix2 0 (i 1))) * g (ix2 0 (i 1)) + b (ix2 0 (i 1))

theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Each of the four 1 × 256 rows is read whole at every step. -/
theorem iblk1_1 (c : Dev nD) (t : Fin cfg1.N) : iblk1 V c 1 t = V c main_v27 := by
  obtain ⟨-, -, e10, e11, e20, e21, e30, e31, e40, e41, -, -⟩ := idx_facts1 t
  exact funext fun y => congrArg (V c main_v27) (funext fun a => Fin.ext (match a with
    | ⟨0, _⟩ => (by show win1_1.index t (0 : Fin 2) * 1 + 1 * (y 0).val = (y 0).val; omega)
    | ⟨1, _⟩ => (by show win1_1.index t (1 : Fin 2) * 256 + 1 * (y 1).val = (y 1).val; omega)))
theorem iblk1_2 (c : Dev nD) (t : Fin cfg1.N) : iblk1 V c 2 t = V c main_v28 := by
  obtain ⟨-, -, e10, e11, e20, e21, e30, e31, e40, e41, -, -⟩ := idx_facts1 t
  exact funext fun y => congrArg (V c main_v28) (funext fun a => Fin.ext (match a with
    | ⟨0, _⟩ => (by show win1_2.index t (0 : Fin 2) * 1 + 1 * (y 0).val = (y 0).val; omega)
    | ⟨1, _⟩ => (by show win1_2.index t (1 : Fin 2) * 256 + 1 * (y 1).val = (y 1).val; omega)))
theorem iblk1_3 (c : Dev nD) (t : Fin cfg1.N) : iblk1 V c 3 t = V c main_v29 := by
  obtain ⟨-, -, e10, e11, e20, e21, e30, e31, e40, e41, -, -⟩ := idx_facts1 t
  exact funext fun y => congrArg (V c main_v29) (funext fun a => Fin.ext (match a with
    | ⟨0, _⟩ => (by show win1_3.index t (0 : Fin 2) * 1 + 1 * (y 0).val = (y 0).val; omega)
    | ⟨1, _⟩ => (by show win1_3.index t (1 : Fin 2) * 256 + 1 * (y 1).val = (y 1).val; omega)))
theorem iblk1_4 (c : Dev nD) (t : Fin cfg1.N) : iblk1 V c 4 t = V c main_v30 := by
  obtain ⟨-, -, e10, e11, e20, e21, e30, e31, e40, e41, -, -⟩ := idx_facts1 t
  exact funext fun y => congrArg (V c main_v30) (funext fun a => Fin.ext (match a with
    | ⟨0, _⟩ => (by show win1_4.index t (0 : Fin 2) * 1 + 1 * (y 0).val = (y 0).val; omega)
    | ⟨1, _⟩ => (by show win1_4.index t (1 : Fin 2) * 256 + 1 * (y 1).val = (y 1).val; omega)))

/-- Step `t` writes rows 2000 t … 2000 t + 1999 of `G1` of the entry arrays. -/
theorem flushed1_5_eq (c : Dev nD) (t : Fin cfg1.N) :
    (dat1 (F := Ideal) V c).flushed 5 t
      = ((cfg1.win 5).blk t).view.read (Elt Ideal) (G1 (V c main_v15_0) (V c main_v27) (V c main_v28) (V c main_v29) (V c main_v30)) := by
  show (cfg1.win 5).cut (grid1.coords t) ((dat1 V c).after 5 t) = _
  rw [after1_5, iblk1_1, iblk1_2, iblk1_3, iblk1_4]
  obtain ⟨e00, e01, -, -, -, -, -, -, -, -, e50, e51⟩ := idx_facts1 t
  funext j
  refine (out1_5_at _ _ _ _ _ ((cfg1.win 5).xinj (grid1.coords t) j)).trans ?_
  show _ = G1 (V c main_v15_0) (V c main_v27) (V c main_v28) (V c main_v29) (V c main_v30) (((cfg1.win 5).blk t).view.emb j)
  unfold G1
  have h0 : (iblk1 V c 0 t ((cfg1.win 5).xinj (grid1.coords t) j) : EReal) = V c main_v15_0 (((cfg1.win 5).blk t).view.emb j) := by
    show V c main_v15_0 (((cfg1.win 0).blk t).view.emb ((cfg1.win 5).xinj (grid1.coords t) j)) = _
    refine congrArg (V c main_v15_0) (funext fun a => Fin.ext ?_)
    match a with
    | ⟨0, _⟩ => show win1_0.index t (0 : Fin 2) * 2000 + 1 * (j 0).val = win1_5.index t (0 : Fin 2) * 2000 + 1 * (j 0).val; rw [e00, e50]
    | ⟨1, _⟩ => show win1_0.index t (1 : Fin 2) * 256 + 1 * (j 1).val = win1_5.index t (1 : Fin 2) * 256 + 1 * (j 1).val; rw [e01, e51]
  have h1 : (cfg1.win 5).xinj (grid1.coords t) j 1 = ((cfg1.win 5).blk t).view.emb j 1 :=
    Fin.ext (by show (j 1).val = win1_5.index t (1 : Fin 2) * 256 + 1 * (j 1).val; omega)
  rw [h0, h1]

theorem mem_blk1_5 (t : Fin cfg1.N) (i : S100000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v31).slice (win1_5.rect t)).set ↔ _
  rw [View.set_slice_whole, Rect.mem_set_unit]
  exact Iff.rfl

theorem covered1_5 (i : S100000x256.Idx) :
    ∃ t : Fin cfg1.N, (cfg1.win 5).flush t = true ∧ i ∈ ((cfg1.win 5).blk t).view.set := by
  have hi0 : (i 0).val < 100000 := idx2_lt0 i
  have hi1 : (i 1).val < 256 := idx2_lt1 i
  obtain ⟨t, ht⟩ : ∃ t : Fin cfg1.N, t.val = (i 0).val / 2000 := ⟨⟨(i 0).val / 2000, by show _ < 50; omega⟩, rfl⟩
  obtain ⟨-, -, -, -, -, -, -, -, -, -, q0, q1⟩ := idx_facts1 t
  refine ⟨t, flush1_5 t, (mem_blk1_5 t i).mpr fun a => ?_⟩
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 256 ≤ (i 1).val ∧ (i 1).val < win1_5.index t (1 : Fin 2) * 256 + 256; omega

theorem final1_5 (c : Dev nD) :
    (dat1 (F := Ideal) V c).arrAt 5 cfg1.N = G1 (V c main_v15_0) (V c main_v27) (V c main_v28) (V c main_v29) (V c main_v30) :=
  (dat1 V c).arrAt_eq_of_cover 5 (G1 (V c main_v15_0) (V c main_v27) (V c main_v28) (V c main_v29) (V c main_v30))
    (fun t _ => flushed1_5_eq V c t) covered1_5

end Cert.KernelIdeal.HandVal

end
-- ==== Proof.KI_ValuePure.lean ====
import proofs.«119049_j60301340836383_1_alg».proof.Proof.KI_Val1
import proofs.«119049_j60301340836383_1_alg».proof.Proof.KI_Blk
import proofs.«119049_j60301340836383_1_alg».proof.Proof.KI_Host

noncomputable section

namespace Cert.KernelIdeal.HandVal

open Cert.KernelIdeal Cert.KernelIdeal.HandHost Idealize.ShloMosaic Idealize.ShloMosaic.ValueIdx

/-- With the biases laid as rows and read back, a row of the activations is the specification's. -/
theorem prow_kRow128 (a0 hop : FVec Ideal S100000x128 .f32) (a2 a3 : FVec Ideal S128x128 .f32) (a4 a5 : FVec Ideal S128 .f32) :
    prow a0 hop a2 a3 (kRow128 (F := Ideal) a4) (kRow128 (F := Ideal) a5) = Cert.Spec.P a0 hop a2 a3 a4 a5 := by
  have h (b : FVec Ideal S128 .f32) : rowvec (kRow128 (F := Ideal) b) = b :=
    funext fun j => (kRow128_apply b (j 0)).trans (congrArg b (eq_ix1 j).symm)
  unfold prow
  rw [h, h]

/-- Entry by entry, `G1` of the activations and the rows made from their sums is the normalisation with variance `varK`. -/
theorem value_pure (a0 hop : FVec Ideal S100000x128 .f32) (a2 a3 : FVec Ideal S128x128 .f32) (a4 a5 : FVec Ideal S128 .f32)
    (a6 a7 : FVec Ideal S256 .f32) :
    G1 (G6 a0 hop a2 a3 (kRow128 (F := Ideal) a4) (kRow128 (F := Ideal) a5))
        (kMeanRow (F := Ideal) (S7 a0 hop a2 a3 (kRow128 (F := Ideal) a4) (kRow128 (F := Ideal) a5)))
        (kInvRow (F := Ideal) (S7 a0 hop a2 a3 (kRow128 (F := Ideal) a4) (kRow128 (F := Ideal) a5))
          (S8 a0 hop a2 a3 (kRow128 (F := Ideal) a4) (kRow128 (F := Ideal) a5)))
        (kRow256 (F := Ideal) a6) (kRow256 (F := Ideal) a7)
      = Cert.Spec.outK (Cert.Spec.P a0 hop a2 a3 a4 a5) a6 a7 := by
  funext i
  obtain ⟨r, q, rfl⟩ : ∃ (r : Fin 100000) (q : Fin 256), i = ix2 r q := ⟨i 0, i 1, eq_ix2 i⟩
  show (_ - kMeanRow (F := Ideal) _ (ix2 0 q)) * kInvRow (F := Ideal) _ _ (ix2 0 q) * kRow256 (F := Ideal) _ (ix2 0 q)
    + kRow256 (F := Ideal) _ (ix2 0 q) = _
  rw [kMeanRow_apply, kInvRow_apply, kRow256_apply, kRow256_apply]
  unfold G6 S7 S8
  rw [prow_kRow128]
  rfl

end Cert.KernelIdeal.HandVal

end
-- ==== Proof.KI_Value.lean ====
import proofs.«119049_j60301340836383_1_alg».proof.Proof.KI_Run
import proofs.«119049_j60301340836383_1_alg».proof.Proof.KI_Host
import proofs.«119049_j60301340836383_1_alg».proof.Proof.KI_Val0
import proofs.«119049_j60301340836383_1_alg».proof.Proof.KI_Val1
import proofs.«119049_j60301340836383_1_alg».proof.Proof.KI_ValuePure

set_option maxRecDepth 16384

noncomputable section

namespace Cert.KernelIdeal.HandVal

open Cert.KernelIdeal Cert.KernelIdeal.Hand Cert.KernelIdeal.HandHost
open Cert.KernelIdeal.Gen hiding V0 V1 V2 V3 V4
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- A buffer's contents at launch. -/
abbrev arg (r : Ref sig .tc) := m ((c.tc : Thread nD τ).loc r)

/-- A buffer the first stretch of operations does not write still holds its launch contents. -/
theorem V1_of_not_written (r : Ref sig .tc) (h : r ∉ hostOps0_W := by decide) : V1 m ρ c r = arg m c r :=
  (StableHlo.after_of_writes_sub hostOps0 _ hostOps0_writes h).trans rfl

/-- Likewise before the second stretch, if it is moreover no array of the first kernel. -/
theorem W2_of_arg (r : Ref sig .tc) (h0 : r ∉ hostOps0_W := by decide) (hr0 : ∀ w, Pipeline.arrRef spec0 w ≠ r := by decide) :
    W2 m ρ c (Proc.devRef .tc r) = arg m c r :=
  (W2_of_ne m ρ c r hr0).trans (V1_of_not_written m ρ c r h0)

/-- Each array the second kernel starts from, read back to the launch arguments; then `value_pure`. -/
theorem value : (dat1 (F := Ideal) (V3 m ρ) c).arrAt 5 cfg1.N
    = Cert.Spec.outK
        (Cert.Spec.P (arg m c main_arg0)
          (Cert.ReferenceIdeal.Hand.refHop (F := Ideal) (arg m c main_arg0) (arg m c main_arg1) (arg m c main_arg8)
            (arg m c main_arg9))
          (arg m c main_arg2) (arg m c main_arg3) (arg m c main_arg4) (arg m c main_arg5))
        (arg m c main_arg6) (arg m c main_arg7) := by
  rw [final1_5 (V3 m ρ) c,
    show V3 m ρ c main_v15_0 = _ from
      (StableHlo.after_of_writes_sub hostOps1 _ hostOps1_writes (by decide)).trans (W2_arr m ρ c 6),
    show V3 m ρ c main_v27 = _ from (host1_v27 (W2 m ρ c)).trans (congrArg kMeanRow (W2_arr m ρ c 7)),
    show V3 m ρ c main_v28 = _ from (host1_v28 (W2 m ρ c)).trans (congrArg₂ kInvRow (W2_arr m ρ c 7) (W2_arr m ρ c 8)),
    show V3 m ρ c main_v29 = _ from (host1_v29 (W2 m ρ c)).trans (congrArg kRow256 (W2_of_arg m ρ c main_arg6)),
    show V3 m ρ c main_v30 = _ from (host1_v30 (W2 m ρ c)).trans (congrArg kRow256 (W2_of_arg m ρ c main_arg7)),
    final0_6, final0_7, final0_8, V1_of_not_written m ρ c main_arg0, V1_of_not_written m ρ c main_arg2,
    V1_of_not_written m ρ c main_arg3, show V1 m ρ c main_v12 = _ from host0_v12 (W0 m ρ c),
    show V1 m ρ c main_v13 = _ from host0_v13 (W0 m ρ c), show V1 m ρ c main_v14 = _ from host0_v14 (W0 m ρ c)]
  exact value_pure _ _ _ _ _ _ _ _

end Cert.KernelIdeal.HandVal

end
-- ==== Proof.PreReal.lean ====
import proofs.«119049_j60301340836383_1_alg».proof.Pre_finite_inputs
import proofs.«119049_j60301340836383_1_alg».proof.Proof.Gen.Pre_finite_inputs
import Idealize.ShloMosaic.Lib.ReduceAll
import Idealize.ShloMosaic.PureOps.Ideal
import Idealize.ShloMosaic.Lib.ValueIdx

noncomputable section

namespace Cert.PreReal

open Idealize.ShloMosaic Idealize.ShloMosaic.ValueIdx Cert.Pre_finite_inputs

theorem inf_bits : Ideal.ofBits .f32 0x7F800000#32 = (⊤ : EReal) := by
  simp [Ideal.ofBits, Ideal.ieee]

/-- `max x (-x) < ⊤` excludes both infinities. -/
theorem real_of_abs_lt_top (x : EReal) (h : max x (-x) < ⊤) : ∃ r : ℝ, x = (r : EReal) := by
  induction x using EReal.rec with
  | bot => simp at h
  | coe r => exact ⟨r, rfl⟩
  | top => simp at h

/-- If `|x i| < +∞` holds at every entry (the conjunction over the array is true), every entry is a real number. -/
theorem real_of_all {s : Shape} {axes : List (Fin s.rank)} (x : FVec Ideal s .f32)
    (hb : S_.BroadcastsInDim s (![] : Fin 0 → Fin s.rank)) (hr : s.ReducesTo axes S_) (hu : 0 < S_.numel)
    (init : IVec S_ 1)
    (e : Host.reduce IntOp.andi (cmpf .olt (Host.absf x) (broadcastInDim s ![] hb (constant S_ .f32 0x7F800000#32)))
          init hr hu ix0 = 1#1) (i : s.Idx) : ∃ r : ℝ, x i = (r : EReal) := by
  have hi : Ideal.cmp .olt (max (x i) (-(x i))) (Ideal.ofBits .f32 0x7F800000#32) = 1#1 :=
    Host.reduce_andi_all _ init hr hu ix0 e i
  rw [inf_bits] at hi
  have hlt : max (x i) (-(x i)) < (⊤ : EReal) := by
    by_contra hn
    simp [Ideal.cmp, hn] at hi
  exact real_of_abs_lt_top _ hlt

/-- The precondition is the conjunction of that statement over the eight float arrays; six of them are needed. -/
theorem real_of_pre (a0 : FVec Ideal S100000x128 .f32) (a1 : FVec Ideal S800000 .f32) (a2 a3 : FVec Ideal S128x128 .f32)
    (a4 a5 : FVec Ideal S128 .f32) (a6 a7 : FVec Ideal S256 .f32) (a8 a9 : IVec S800000 32)
    (h : Cert.Pre_finite_inputs.fn (F := Ideal) a0 a1 a2 a3 a4 a5 a6 a7 a8 a9 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal)) := by
  have h0 := congrFun h ix0
  dsimp only [fn, fn_part1, fn_part2, Idealize.ShloMosaic.andi] at h0
  simp only [IntOp.andi_eq_one] at h0
  obtain ⟨⟨⟨⟨⟨⟨⟨e0, e1⟩, e2⟩, e3⟩, e4⟩, e5⟩, -⟩, -⟩ := h0
  exact ⟨real_of_all a0 _ _ _ _ e0, real_of_all a1 _ _ _ _ e1, real_of_all a2 _ _ _ _ e2, real_of_all a3 _ _ _ _ e3,
    real_of_all a4 _ _ _ _ e4, real_of_all a5 _ _ _ _ e5⟩

end Cert.PreReal

end
-- ==== Proof.Reals.lean ====
import proofs.«119049_j60301340836383_1_alg».proof.Proof.Spec
import Idealize.ShloMosaic.PureOps.Contract
import Idealize.ShloMosaic.PureOps.Ideal.Laws

noncomputable section

namespace Cert.Reals

open Idealize.ShloMosaic Idealize.ShloMosaic.ValueIdx

/-- An extended real that is a real number. -/
def IsReal (x : EReal) : Prop := ∃ r : ℝ, x = (r : EReal)

theorem isReal_zero : IsReal 0 := ⟨0, rfl⟩

theorem IsReal.add {a b : EReal} : IsReal a → IsReal b → IsReal (a + b) := by
  rintro ⟨x, rfl⟩ ⟨y, rfl⟩
  exact ⟨x + y, (EReal.coe_add x y).symm⟩

theorem IsReal.mul {a b : EReal} : IsReal a → IsReal b → IsReal (a * b) := by
  rintro ⟨x, rfl⟩ ⟨y, rfl⟩
  exact ⟨x * y, (EReal.coe_mul x y).symm⟩

/-- The coercion is monotone, so it carries the larger of two reals to the larger of their images. -/
theorem IsReal.max {a b : EReal} : IsReal a → IsReal b → IsReal (max a b) := by
  rintro ⟨x, rfl⟩ ⟨y, rfl⟩
  exact ⟨Max.max x y, (EReal.coe_strictMono.monotone.map_max).symm⟩

theorem isReal_sum {ι : Type} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- One layer has real entries when the rows, the weights and the bias do. -/
theorem act_real {x : Spec.SX.Idx → EReal} {w : Spec.SW.Idx → EReal} {b : Spec.SB.Idx → EReal}
    (hx : ∀ i, IsReal (x i)) (hw : ∀ i, IsReal (w i)) (hb : ∀ i, IsReal (b i)) (r : Fin 100000) (q : Fin 128) :
    IsReal (Spec.act x w b r q) :=
  ((isReal_sum _ _ fun k _ => (hx _).mul (hw _)).max isReal_zero).add (hb _)

theorem P_real {feat hop : Spec.SX.Idx → EReal} {w0 w1 : Spec.SW.Idx → EReal} {b0 b1 : Spec.SB.Idx → EReal}
    (hfeat : ∀ i, IsReal (feat i)) (hhop : ∀ i, IsReal (hop i)) (hw0 : ∀ i, IsReal (w0 i)) (hw1 : ∀ i, IsReal (w1 i))
    (hb0 : ∀ i, IsReal (b0 i)) (hb1 : ∀ i, IsReal (b1 i)) (r : Fin 100000) (q : Fin 256) :
    IsReal (Spec.P feat hop w0 w1 b0 b1 r q) := by
  unfold Spec.P
  split
  · exact act_real hfeat hw0 hb0 _ _
  · exact act_real hhop hw1 hb1 _ _

/-- A gather's entry, like a broadcast's, is an entry of the operand. -/
theorem gather_real {s si t : Shape} {w : Nat} (d : GatherDims s si t) {x : s.Idx → EReal} (hx : ∀ i, IsReal (x i))
    (idx : IVec si w) (j : t.Idx) : IsReal (Host.gather d x idx j) :=
  hx _

theorem broadcastInDim_real {s t : Shape} (dims : Fin s.rank → Fin t.rank) (h : s.BroadcastsInDim t dims)
    {x : s.Idx → EReal} (hx : ∀ i, IsReal (x i)) (j : t.Idx) : IsReal (broadcastInDim t dims h x j) :=
  hx _

/-- An accumulating scatter's entry is the operand's entry plus a finite sum of update entries. -/
theorem scatterAdd_real {s si u : Shape} {w : Nat} {φ : FTy} (d : ScatterDims s si u) {x : FVec Ideal s φ}
    {upd : FVec Ideal u φ} (hx : ∀ i, IsReal (x i)) (hu : ∀ j, IsReal (upd j)) (idx : IVec si w) (i : s.Idx) :
    IsReal (Host.scatterAdd d x idx upd i : EReal) := by
  show IsReal (Ideal.hostScatterAdd d x idx upd i)
  unfold Ideal.hostScatterAdd
  exact (hx i).add (isReal_sum _ _ fun j _ => hu j)

theorem mulf_real {s : Shape} {φ : FTy} {x y : FVec Ideal s φ} (hx : ∀ i, IsReal (x i)) (hy : ∀ i, IsReal (y i))
    (i : s.Idx) : IsReal (mulf x y i : EReal) :=
  (hx i).mul (hy i)

theorem constant_zero_real (s : Shape) (i : s.Idx) : IsReal (constant (F := Ideal) s .f32 0x00000000#32 i : EReal) := by
  show IsReal (Ideal.ofBits .f32 0x00000000#32)
  rw [Ideal.ofBits_zero_f32]
  exact isReal_zero

end Cert.Reals

end
-- ==== Proof.RefVal.lean ====
import proofs.«119049_j60301340836383_1_alg».proof.Proof.RefTerm
import proofs.«119049_j60301340836383_1_alg».proof.Proof.Spec
import Idealize.ShloMosaic.Lib.ValueIdx
import Idealize.ShloMosaic.Lib.ValueLayout
import Idealize.ShloMosaic.Lib.Pipeline.Value
import Idealize.ShloMosaic.Lib.StackMember
import Idealize.ShloMosaic.PureOps.Ideal.Laws

noncomputable section

namespace Cert.ReferenceIdeal.HandVal

open Cert.ReferenceIdeal Cert.ReferenceIdeal.Gen Cert.ReferenceIdeal.Hand Idealize.ShloMosaic Idealize.ShloMosaic.ValueIdx
open scoped BigOperators

/-- The sum over the rows from the zero word, at column q. -/
theorem reduce_apply (x : FVec Ideal S100000x256 .f32) (q : Fin 256) :
    Host.reduceAdd x (constant (F := Ideal) S_ .f32 0x00000000#32) reducesTo_S100000x256_S256_d0 h_S_ (ix1 q)
      = ∑ r : Fin 100000, x (ix2 r q) := by
  show Ideal.hostReduceAdd reducesTo_S100000x256_S256_d0 x (Ideal.ofBits .f32 0x00000000#32) (ix1 q) = _
  rw [Ideal.hostReduceAdd_single _ (by decide : S100000x256.Reduces [0] S256), Ideal.ofBits_zero_f32, zero_add]
  exact Finset.sum_congr rfl fun r _ => congrArg x (funext fun a => Fin.ext (match a with | ⟨0, _⟩ => rfl | ⟨1, _⟩ => rfl))

/-- A scalar laid over any shape reads the scalar. -/
theorem bcast_scalar {α : Type} {t : Shape} (h : S_.BroadcastsInDim t (![] : Fin 0 → Fin t.rank)) (x : S_.Idx → α) (j : t.Idx) :
    broadcastInDim t ![] h x j = x ix0 :=
  broadcastInDim_apply _ h x j ix0 fun a => a.elim0

/-- A vector as a one-row matrix reads the vector at the column. -/
theorem bcast_row {α : Type} {n : Nat} (h : (⟨1, ![n]⟩ : Shape).BroadcastsInDim ⟨2, ![1, n]⟩ ![1])
    (b : (⟨1, ![n]⟩ : Shape).Idx → α) (u : Fin 1) (q : Fin n) : broadcastInDim ⟨2, ![1, n]⟩ ![1] h b (ix2 u q) = b (ix1 q) :=
  broadcastInDim_apply _ h b _ (ix1 q) fun a =>
    match a with
    | ⟨0, _⟩ => by show q.val = if n = 1 then 0 else q.val; split <;> omega

/-- A one-row matrix laid along the rows reads the row at the column. -/
theorem bcast_rows {α : Type} {m n : Nat} (h : (⟨2, ![1, n]⟩ : Shape).BroadcastsInDim ⟨2, ![m, n]⟩ ![0, 1])
    (v : (⟨2, ![1, n]⟩ : Shape).Idx → α) (r : Fin m) (q : Fin n) :
    broadcastInDim ⟨2, ![m, n]⟩ ![0, 1] h v (ix2 r q) = v (ix2 0 q) :=
  broadcastInDim_apply _ h v _ (ix2 0 q) fun a =>
    match a with
    | ⟨0, _⟩ => (if_pos rfl).symm
    | ⟨1, _⟩ => by show q.val = if n = 1 then 0 else q.val; split <;> omega

theorem hostDivf_apply {s : Shape} (a b : FVec Ideal s .f32) (i : s.Idx) : Host.divf a b i = Ideal.div (a i) (b i) := rfl
theorem hostRsqrt_apply {s : Shape} (a : FVec Ideal s .f32) (i : s.Idx) : Host.rsqrt a i = Ideal.rsqrt (a i) := rfl

/-- One layer at (r, q): the product with the weights is the sum over k of x (r, k) · w (k, q). -/
theorem refAct_apply (x : FVec Ideal S100000x128 .f32) (w : FVec Ideal S128x128 .f32) (b : FVec Ideal S128 .f32)
    (r : Fin 100000) (q : Fin 128) : refAct (F := Ideal) x w b (ix2 r q) = Cert.Spec.act x w b r q := by
  unfold refAct Cert.Spec.act
  rw [addf_apply, maximumf_apply, bcast_scalar, constant_apply, Ideal.ofBits_zero_f32, bcast_rows, bcast_row]
  exact congrArg (fun z => max z 0 + b (ix1 q)) (StackMember.dotGeneral_plain_apply none x w r q)

/-- The 256-wide rows at (r, q): the first layer in columns 0–127, the second, 128 columns back, in 128–255. -/
theorem refP_apply (a0 hop : FVec Ideal S100000x128 .f32) (a2 a3 : FVec Ideal S128x128 .f32) (a4 a5 : FVec Ideal S128 .f32)
    (r : Fin 100000) (q : Fin 256) :
    refP (F := Ideal) a0 hop a2 a3 a4 a5 (ix2 r q) = Cert.Spec.P a0 hop a2 a3 a4 a5 r q := by
  unfold refP Cert.Spec.P
  by_cases h : q.val < 128
  · rw [dif_pos h, ← refAct_apply]
    exact concatenate_pair_apply_left 1 (refAct a0 a2 a4) (refAct hop a3 a5) _ (ix2 r q) rfl (ix2 r ⟨q.val, h⟩) fun b =>
      match b with
      | ⟨0, _⟩ => rfl
      | ⟨1, _⟩ => rfl
  · rw [dif_neg h, ← refAct_apply]
    exact concatenate_pair_apply_right 1 (refAct a0 a2 a4) (refAct hop a3 a5) _ (ix2 r q) rfl rfl (ix2 r ⟨q.val - 128, by omega⟩)
      (fun b hb =>
        match b, hb with
        | ⟨0, _⟩, _ => rfl
        | ⟨1, _⟩, hb => absurd rfl hb)
      (by show q.val - 128 + 128 = q.val; omega)

section Stages
variable (p : FVec Ideal S100000x256 .f32) (pp : Fin 100000 → Fin 256 → EReal) (hp : ∀ r q, p (ix2 r q) = pp r q)
include hp

theorem refMean_apply (q : Fin 256) : refMean p (ix1 q) = Cert.Spec.mean pp q := by
  unfold refMean Cert.Spec.mean Cert.Spec.colSum Cert.Spec.nN
  rw [hostDivf_apply, reduce_apply, bcast_scalar, constant_apply]
  simp only [hp]

theorem refDev_apply (r : Fin 100000) (q : Fin 256) : refDev p (ix2 r q) = pp r q - Cert.Spec.mean pp q := by
  unfold refDev Cert.Spec.mean Cert.Spec.colSum Cert.Spec.nN
  rw [subf_apply, bcast_rows, hostDivf_apply, bcast_row, reduce_apply, bcast_scalar, constant_apply]
  simp only [hp]

omit hp in
/-- The divisor of the variance is the row count: the integer zero is the real zero. -/
theorem refN_eq : refN (F := Ideal) ix0 = Cert.Spec.nN := by
  unfold refN Cert.Spec.nN
  rw [subf_apply, constant_apply, sitofp_apply, constantI_apply]
  show Ideal.ofBits .f32 0x47C35000#32 - (((0#32 : BitVec 32).toInt : ℝ) : EReal) = _
  rw [show (((0#32 : BitVec 32).toInt : ℝ) : EReal) = 0 by simp, sub_zero]

omit hp in
/-- The row count is positive, so the guard on it holds. -/
theorem guard_eq : cmpf .ogt refN (constant (F := Ideal) S_ .f32 0x00000000#32) ix0 = 1#1 := by
  rw [cmpf_apply, refN_eq, constant_apply, Ideal.ofBits_zero_f32, Cert.Spec.nN_eq]
  show BitVec.ofBool (decide ((0 : EReal) < ((100000 : ℝ) : EReal))) = 1#1
  rw [decide_eq_true (EReal.coe_pos.mpr (by norm_num))]
  rfl

theorem refVar_apply (q : Fin 256) : refVar p (ix1 q) = Cert.Spec.varR pp q := by
  unfold refVar Cert.Spec.varR
  rw [select_apply, bcast_scalar, guard_eq, select_one, hostDivf_apply, reduce_apply, bcast_scalar, refN_eq]
  simp only [mulf_apply, refDev_apply p pp hp]

theorem refNorm_apply (mu v a6 a7 : FVec Ideal S256 .f32) (r : Fin 100000) (q : Fin 256) :
    refNorm p mu v a6 a7 (ix2 r q)
      = (pp r q - mu (ix1 q)) * Ideal.rsqrt (v (ix1 q) + Cert.Spec.eps) * a6 (ix1 q) + a7 (ix1 q) := by
  unfold refNorm refRows Cert.Spec.eps
  rw [addf_apply, mulf_apply, mulf_apply, subf_apply, hp, bcast_rows, bcast_row, bcast_rows, bcast_row, bcast_rows, bcast_row,
    bcast_rows, bcast_row, hostRsqrt_apply, addf_apply, bcast_scalar, constant_apply]

end Stages

/-- The reference's result is `outR` of the 256-wide rows: stage by stage at an index. -/
theorem refOut_eq (a0 : FVec Ideal S100000x128 .f32) (a1 : FVec Ideal S800000 .f32) (a2 a3 : FVec Ideal S128x128 .f32)
    (a4 a5 : FVec Ideal S128 .f32) (a6 a7 : FVec Ideal S256 .f32) (a8 a9 : IVec S800000 32) :
    refOut (F := Ideal) a0 a1 a2 a3 a4 a5 a6 a7 a8 a9
      = Cert.Spec.outR (Cert.Spec.P a0 (refHop (F := Ideal) a0 a1 a8 a9) a2 a3 a4 a5) a6 a7 := by
  funext i
  obtain ⟨r, q, rfl⟩ : ∃ r q, i = ix2 r q := ⟨i 0, i 1, eq_ix2 i⟩
  have hp := refP_apply a0 (refHop (F := Ideal) a0 a1 a8 a9) a2 a3 a4 a5
  unfold refOut
  rw [refNorm_apply _ _ hp, refMean_apply _ _ hp, refVar_apply _ _ hp]
  rfl

end Cert.ReferenceIdeal.HandVal

end
-- ==== Proof.BridgePure.lean ====
import proofs.«119049_j60301340836383_1_alg».proof.Proof.PreReal
import proofs.«119049_j60301340836383_1_alg».proof.Proof.Reals
import proofs.«119049_j60301340836383_1_alg».proof.Proof.RefVal

noncomputable section

namespace Cert.Bridge

open Idealize.ShloMosaic Cert.Pre_finite_inputs Cert.ReferenceIdeal.Hand Cert.Reals

/-- The aggregate of real features and weights is real: a zero plus a finite sum of products of a weight and a feature entry. -/
theorem refHop_real (a0 : FVec Ideal S100000x128 .f32) (a1 : FVec Ideal S800000 .f32) (a8 a9 : IVec S800000 32)
    (h0 : ∀ i, IsReal (a0 i)) (h1 : ∀ i, IsReal (a1 i)) (i) : IsReal (refHop (F := Ideal) a0 a1 a8 a9 i) :=
  scatterAdd_real _ (fun k => broadcastInDim_real _ _ (fun l => constant_zero_real S_ l) k)
    (mulf_real (fun k => broadcastInDim_real _ _ (fun l => broadcastInDim_real _ _ h1 l) k) fun k => gather_real _ h0 _ k) _ i

/-- Under the precondition every entry of the 256-wide rows is real, so the two forms of the variance agree. -/
theorem out_eq (a0 : FVec Ideal S100000x128 .f32) (a1 : FVec Ideal S800000 .f32) (a2 a3 : FVec Ideal S128x128 .f32)
    (a4 a5 : FVec Ideal S128 .f32) (a6 a7 : FVec Ideal S256 .f32) (a8 a9 : IVec S800000 32)
    (hpre : Cert.Pre_finite_inputs.fn (F := Ideal) a0 a1 a2 a3 a4 a5 a6 a7 a8 a9 = fun _ => 1#1) :
    Cert.Spec.outK (Cert.Spec.P a0 (refHop (F := Ideal) a0 a1 a8 a9) a2 a3 a4 a5) a6 a7
      = refOut (F := Ideal) a0 a1 a2 a3 a4 a5 a6 a7 a8 a9 := by
  obtain ⟨h0, h1, h2, h3, h4, h5⟩ := Cert.PreReal.real_of_pre a0 a1 a2 a3 a4 a5 a6 a7 a8 a9 hpre
  rw [Cert.ReferenceIdeal.HandVal.refOut_eq]
  exact Cert.Spec.outK_eq_outR _ (fun r q => P_real h0 (refHop_real a0 a1 a8 a9 h0 h1) h2 h3 h4 h5 r q) a6 a7

end Cert.Bridge

end
-- ==== Proof.Bridge.lean ====
import proofs.«119049_j60301340836383_1_alg».proof.Defs
import proofs.«119049_j60301340836383_1_alg».proof.Proof.KI_Run
import proofs.«119049_j60301340836383_1_alg».proof.Proof.KI_Value
import proofs.«119049_j60301340836383_1_alg».proof.Proof.BridgePure
import proofs.«119049_j60301340836383_1_alg».proof.Proof.RefRun

noncomputable section

namespace Cert.Bridge

open Idealize.ShloMosaic Idealize.ShloMosaic.TcCoe Idealize.SL.Sem Cert.ReferenceIdeal.Hand

/-- Both results are the reference's term of the agreeing arguments: the kernel program's by `value` and `out_eq`. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => refOutOf fun b => m' ((c.tc : Thread Cert.ReferenceIdeal.nD Cert.ReferenceIdeal.τ).loc b),
    (θ_run (Cert.KernelIdeal.defs (F := Ideal)) _ _).mono (fun r h c => ⟨(h c).1.trans ?_, (h c).2⟩)
      (Cert.KernelIdeal.Hand.run_value (F := Ideal) m ρ),
    (θ_run (Cert.ReferenceIdeal.defs (F := Ideal)) _ _).mono
      (fun r h c => ⟨(h c).1, by and_intros <;> exact (h c).2 _ (by decide)⟩) (run (F := Ideal) m' ρ')⟩
  obtain ⟨h0, h1, h2, h3, h4, h5, h6, h7, h8, h9⟩ := hagree c
  simp only [refOutOf, h0, h1, h2, h3, h4, h5, h6, h7, h8, h9]
  exact (Cert.KernelIdeal.HandVal.value m ρ c).trans (out_eq _ _ _ _ _ _ _ _ _ _ (hpre c))

end Cert.Bridge

end
-- ==== Proof.lean ====
import proofs.«119049_j60301340836383_1_alg».proof.Defs
import proofs.«119049_j60301340836383_1_alg».proof.Proof.Gen.Kernel
import proofs.«119049_j60301340836383_1_alg».proof.Proof.Gen.KernelIdeal
import proofs.«119049_j60301340836383_1_alg».proof.Proof.Gen.ReferenceIdeal
import proofs.«119049_j60301340836383_1_alg».proof.Proof.Gen.Pre_finite_inputs
import proofs.«119049_j60301340836383_1_alg».proof.Proof.KB_Run
import proofs.«119049_j60301340836383_1_alg».proof.Proof.KI_Run
import proofs.«119049_j60301340836383_1_alg».proof.Proof.RefRun
import proofs.«119049_j60301340836383_1_alg».proof.Proof.Bridge

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => (θ_run _ _ _).mono (fun _ h c => (h c).2) (Cert.Kernel.Hand.run_value (F := Bits) m ρ),
  fun m ρ _ => (θ_run _ _ _).mono (fun _ h c => (h c).2) (Cert.KernelIdeal.Hand.run_value (F := Ideal) m ρ),
  Cert.ReferenceIdeal.Hand.frame_ri,
  trivial,
  Cert.Bridge.algebraic⟩

end Cert.Proof

end
